-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x96 : Shape := ⟨2, ![100000, 96]⟩
abbrev S2x3200000 : Shape := ⟨2, ![2, 3200000]⟩
abbrev S100000 : Shape := ⟨1, ![100000]⟩
abbrev S96x64 : Shape := ⟨2, ![96, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x96 : S_.BroadcastsInDim S100000x96 (![] : Fin 0 → Fin S100000x96.rank)
  reducesTo_S100000x96_S_d0_1 : S100000x96.ReducesTo [0, 1] S_
  h_S_ : 0 < S_.numel
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S64x32 .f32) (main_arg10 : FVec F S32 .f32) (main_arg11 : FVec F S32x2 .f32) (main_arg12 : FVec F S2 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x2 .f32 := Host.absf main_arg11
  let main_cst_16 : FVec F S_ .f32 := constant S_ .f32 0x7F800000#32
  let main_v45 : FVec F S32x2 .f32 := broadcastInDim S32x2 ![] bcast_S_S32x2 main_cst_16
  let main_v46 : IVec S32x2 1 := cmpf .olt main_v44 main_v45
  let main_c_17 : IVec S_ 1 := constantI S_ 1 1#1
  let main_v47 : IVec S_ 1 := (fun x v => Host.reduce IntOp.andi x v reducesTo_S32x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_arg11 : FVec F S32x2 .f32) (main_arg12 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x96 .f32) (main_arg1 : IVec S2x3200000 32) (main_arg2 : IVec S100000 32) (main_arg3 : FVec F S96x64 .f32) (main_arg4 : FVec F S64 .f32) (main_arg5 : FVec F S64x64 .f32) (main_arg6 : FVec F S64 .f32) (main_arg7 : FVec F S64x64 .f32) (main_arg8 : FVec F S64 .f32) (main_arg9 : FVec F S64x32 .f32) (main_arg10 : FVec F S32 .f32) (main_arg11 : FVec F S32x2 .f32) (main_arg12 : FVec F S2 .f32) : IVec S_ 1 :=
  let main_v0 : FVec F S100000x96 .f32 := Host.absf main_arg0
  let main_cst : FVec F S_ .f32 := constant S_ .f32 0x7F800000#32
  let main_v1 : FVec F S100000x96 .f32 := broadcastInDim S100000x96 ![] bcast_S_S100000x96 main_cst
  let main_v2 : IVec S100000x96 1 := cmpf .olt main_v0 main_v1
  let main_c : IVec S_ 1 := constantI S_ 1 1#1
  let main_v3 : IVec S_ 1 := (fun x v => Host.reduce IntOp.andi x v reducesTo_S100000x96_S_d0_1 h_S_) main_v2 main_c
  let main_v4 : FVec F S96x64 .f32 := Host.absf main_arg3
  let main_cst_0 : FVec F S_ .f32 := constant S_ .f32 0x7F800000#32
  let main_v5 : FVec F S96x64 .f32 := broadcastInDim S96x64 ![] bcast_S_S96x64 main_cst_0
  let main_v6 : IVec S96x64 1 := cmpf .olt main_v4 main_v5
  let main_c_1 : IVec S_ 1 := constantI S_ 1 1#1
  let main_v7 : IVec S_ 1 := (fun x v => Host.reduce IntOp.andi x v reducesTo_S96x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x96 : Shape := ⟨2, ![100000, 96]⟩
abbrev S2x3200000 : Shape := ⟨2, ![2, 3200000]⟩
abbrev S100000 : Shape := ⟨1, ![100000]⟩
abbrev S96x64 : Shape := ⟨2, ![96, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x64 : Shape := ⟨2, ![100000, 64]⟩
abbrev S4000x96 : Shape := ⟨2, ![4000, 96]⟩
abbrev S4000x1 : Shape := ⟨2, ![4000, 1]⟩
abbrev S4000x64 : Shape := ⟨2, ![4000, 64]⟩
abbrev S3200000x64 : Shape := ⟨2, ![3200000, 64]⟩
abbrev S1x64 : Shape := ⟨2, ![1, 64]⟩
abbrev S2x128x64 : Shape := ⟨3, ![2, 128, 64]⟩
abbrev S2x1x128 : Shape := ⟨3, ![2, 1, 128]⟩
abbrev S2000x64 : Shape := ⟨2, ![2000, 64]⟩
abbrev S2000x1 : Shape := ⟨2, ![2000, 1]⟩
abbrev S1x128x64 : Shape := ⟨3, ![1, 128, 64]⟩
abbrev S1x1x128 : Shape := ⟨3, ![1, 1, 128]⟩
abbrev S128x64 : Shape := ⟨2, ![128, 64]⟩
abbrev S1x128 : Shape := ⟨2, ![1, 128]⟩
abbrev S2000x128 : Shape := ⟨2, ![2000, 128]⟩
abbrev S128 : Shape := ⟨1, ![128]⟩
abbrev S128x1 : Shape := ⟨2, ![128, 1]⟩
abbrev S128x32 : Shape := ⟨2, ![128, 32]⟩
abbrev S1x32 : Shape := ⟨2, ![1, 32]⟩
abbrev S128x2 : Shape := ⟨2, ![128, 2]⟩
abbrev S1x2 : Shape := ⟨2, ![1, 2]⟩

abbrev nBuf : Space → Nat
  | .hbm => 92
  | .vmem => 32
  | .smem => 0
  | _ => 0

abbrev bufTy : (tb : Table) → Fin (tcTables nBuf tb) → BufTy
  | .hbm, ⟨0, _⟩ => ⟨S100000x96, .f32⟩
  | .hbm, ⟨1, _⟩ => ⟨S2x3200000, .i32⟩
  | .hbm, ⟨2, _⟩ => ⟨S100000, .i32⟩
  | .hbm, ⟨3, _⟩ => ⟨S96x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x2, .f32⟩
  | .hbm, ⟨12, _⟩ => ⟨S2, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S_, .f32⟩
  | .hbm, ⟨18, _⟩ => ⟨S3200000, .f32⟩
  | .hbm, ⟨19, _⟩ => ⟨S_, .f32⟩
  | .hbm, ⟨20, _⟩ => ⟨S100000, .f32⟩
  | .hbm, ⟨21, _⟩ => ⟨S3200000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x64, .f32⟩
  | .hbm, ⟨38, _⟩ => ⟨S_, .f32⟩
  | .hbm, ⟨39, _⟩ => ⟨S100000x64, .f32⟩
  | .hbm, ⟨40, _⟩ => ⟨S3200000x1, .i32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x64, .f32⟩
  | .hbm, ⟨53, _⟩ => ⟨S_, .f32⟩
  | .hbm, ⟨54, _⟩ => ⟨S100000x64, .f32⟩
  | .hbm, ⟨55, _⟩ => ⟨S3200000x1, .i32⟩
  | .hbm, ⟨56, _⟩ => ⟨S100000x64, .f32⟩
  | .hbm, ⟨57, _⟩ => ⟨S100000x1, .i32⟩
  | .hbm, ⟨58, _⟩ => ⟨S1x64, .f32⟩
  | .hbm, ⟨59, _⟩ => ⟨S2x128x64, .f32⟩
  | .hbm, ⟨60, _⟩ => ⟨S2x1x128, .f32⟩
  | .hbm, ⟨61, _⟩ => ⟨S_, .f32⟩
  | .hbm, ⟨62, _⟩ => ⟨S128x64, .f32⟩
  | .hbm, ⟨63, _⟩ => ⟨S_, .f32⟩
  | .hbm, ⟨64, _⟩ => ⟨S1x128, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S128x1, .f32⟩
  | .hbm, ⟨70, _⟩ => ⟨S128x64, .f32⟩
  | .hbm, ⟨71, _⟩ => ⟨S128x64, .f32⟩
  | .hbm, ⟨72, _⟩ => ⟨S128x64, .f32⟩
  | .hbm, ⟨73, _⟩ => ⟨S1x64, .f32⟩
  | .hbm, ⟨74, _⟩ => ⟨S128x64, .f32⟩
  | .hbm, ⟨75, _⟩ => ⟨S128x64, .f32⟩
  | .hbm, ⟨76, _⟩ => ⟨S_, .f32⟩
  | .hbm, ⟨77, _⟩ => ⟨S_, .f32⟩
  | .hbm, ⟨78, _⟩ => ⟨S128x64, .f32⟩
  | .hbm, ⟨79, _⟩ => ⟨S128x64, .i1⟩
  | .hbm, ⟨80, _⟩ => ⟨S_, .f32⟩
  | .hbm, ⟨81, _⟩ => ⟨S128x64, .f32⟩
  | .hbm, ⟨82, _⟩ => ⟨S128x64, .f32⟩
  | .hbm, ⟨83, _⟩ => ⟨S128x64, .f32⟩
  | .hbm, ⟨84, _⟩ => ⟨S128x32, .f32⟩
  | .hbm, ⟨85, _⟩ => ⟨S1x32, .f32⟩
  | .hbm, ⟨86, _⟩ => ⟨S128x32, .f32⟩
  | .hbm, ⟨87, _⟩ => ⟨S128x32, .f32⟩
  | .hbm, ⟨88, _⟩ => ⟨S128x2, .f32⟩
  | .hbm, ⟨89, _⟩ => ⟨S1x2, .f32⟩
  | .hbm, ⟨90, _⟩ => ⟨S128x2, .f32⟩
  | .hbm, ⟨91, _⟩ => ⟨S128x2, .f32⟩
  | .local _ .vmem, ⟨0, _⟩ => ⟨S4000x96, .f32⟩
  | .local _ .vmem, ⟨1, _⟩ => ⟨S4000x96, .f32⟩
  | .local _ .vmem, ⟨2, _⟩ => ⟨S96x64, .f32⟩
  | .local _ .vmem, ⟨3, _⟩ => ⟨S4000x1, .f32⟩
  | .local _ .vmem, ⟨4, _⟩ => ⟨S4000x1, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x1, .f32⟩
  | .local _ .vmem, ⟨12, _⟩ => ⟨S4000x1, .f32⟩
  | .local _ .vmem, ⟨13, _⟩ => ⟨S1x64, .f32⟩
  | .local _ .vmem, ⟨14, _⟩ => ⟨S64x64, .f32⟩
  | .local _ .vmem, ⟨15, _⟩ => ⟨S4000x64, .f32⟩
  | .local _ .vmem, ⟨16, _⟩ => ⟨S4000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x1, .f32⟩
  | .local _ .vmem, ⟨22, _⟩ => ⟨S2000x1, .f32⟩
  | .local _ .vmem, ⟨23, _⟩ => ⟨S1x64, .f32⟩
  | .local _ .vmem, ⟨24, _⟩ => ⟨S2000x1, .i32⟩
  | .local _ .vmem, ⟨25, _⟩ => ⟨S2000x1, .i32⟩
  | .local _ .vmem, ⟨26, _⟩ => ⟨S1x128x64, .f32⟩
  | .local _ .vmem, ⟨27, _⟩ => ⟨S1x128x64, .f32⟩
  | .local _ .vmem, ⟨28, _⟩ => ⟨S1x1x128, .f32⟩
  | .local _ .vmem, ⟨29, _⟩ => ⟨S1x1x128, .f32⟩
  | .local _ .vmem, ⟨30, _⟩ => ⟨S128x64, .f32⟩
  | .local _ .vmem, ⟨31, _⟩ => ⟨S1x128, .f32⟩
  | _, _ => ⟨S100000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37_0 : Ref sig .tc := ⟨.hbm, 59, rfl⟩
abbrev main_v37_1 : Ref sig .tc := ⟨.hbm, 60, rfl⟩
abbrev main_cst_7 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_scratch0 : Ref sig .tc := ⟨.vmem, 30, rfl⟩
abbrev cc2_scratch1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 25], ![false, false]⟩

def k2_cond2 (i : grid2.Coords) : BitVec 1 :=
  let arg1 : BitVec 32 := BitVec.ofNat 32 (i 1).val
  let c24_i32 : BitVec 32 := 24#32
  let v40 : BitVec 1 := Scalar.cmpi .eq arg1 c24_i32
  let v41 : BitVec 32 := Scalar.extui v40
  let c0_i32_20 : BitVec 32 := 0#32
  let v42 : BitVec 1 := Scalar.cmpi .ne v41 c0_i32_20
  v42

def cc2_transform_0 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S2000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x128x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S4000x96_S4000x96_0_0 : ∀ a, (![0, 0] : Fin 2 → Nat) a + S4000x96.size a ≤ S4000x96.size a
  h_S4000x96 : 0 < S4000x96.numel
  bitsLt_bf16_f32 : FTy.bits .bf16 < FTy.bits .f32
  inb_S96x64_S96x64_0_0 : ∀ a, (![0, 0] : Fin 2 → Nat) a + S96x64.size a ≤ S96x64.size a
  h_S96x64 : 0 < S96x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  broadcasts_S1x64_S2000x64 : S1x64.Broadcasts S2000x64
  iota_S2000x128_d1_w32 : S2000x128.Iotas .tc 32 [1]
  broadcasts_S2000x1_S2000x128 : S2000x1.Broadcasts S2000x128
  natLt_1_32 : 1 < 32
  reduces_S2000x128_S128 : S2000x128.Reduces [0] S128
  shapeCasts_S128_S1x128 : S128.ShapeCasts S1x128
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S1x128x64 : S128x64.ShapeCasts S1x128x64
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S2x128x64_S128x64_d0 : S2x128x64.ReducesTo [0] S128x64
  h_S_ : 0 < S_.numel
  reducesTo_S2x1x128_S1x128_d0 : S2x1x128.ReducesTo [0] S1x128
  shapeCasts_S1x128_S128 : S1x128.ShapeCasts S128
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  scatter_S100000_S3200000x1_S3200000_n_0_0_1_wf : ScatterDims.WF S100000 S3200000x1 S3200000 [] [0] [0] 1
  dot_S4000x96_S96x64_S4000x64_1_0_0_1_n_n_wf : DotDims.WF S4000x96 S96x64 S4000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S4000x64_S64x64_S4000x64_1_0_0_1_n_n_wf : DotDims.WF S4000x64 S64x64 S4000x64 [1] [0] [0] [1] [] []
  dot_S2000x128_S2000x64_S128x64_0_0_1_1_n_n_wf : DotDims.WF S2000x128 S2000x64 S128x64 [0] [0] [1] [1] [] []
  dot_S128x64_S64x64_S128x64_1_0_0_1_n_n_wf : DotDims.WF S128x64 S64x64 S128x64 [1] [0] [0] [1] [] []
  dot_S128x64_S64x32_S128x32_1_0_0_1_n_n_wf : DotDims.WF S128x64 S64x32 S128x32 [1] [0] [0] [1] [] []
  dot_S128x32_S32x2_S128x2_1_0_0_1_n_n_wf : DotDims.WF S128x32 S32x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x96.size a ≤ S100000x96.size a
  hwx0_0 : ∀ i : grid0.Coords, EltTy.bits .f32 = 32 ∨ (Rect.block (s := S100000x96) S4000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x64.size a ≤ S96x64.size a
  hwx0_1 : ∀ i : grid0.Coords, EltTy.bits .f32 = 32 ∨ (Rect.block (s := S96x64) S96x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S100000x1.size a
  hwx2_4 : ∀ i : grid2.Coords, EltTy.bits .i32 = 32 ∨ (Rect.block (s := S100000x1) S2000x1.size (cc2_transform_4 i) (hinb2_4 i)).WholeWords (EltTy.packing .i32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x128x64.size a ≤ S2x128x64.size a
  hwx2_5 : ∀ i : grid2.Coords, EltTy.bits .f32 = 32 ∨ (Rect.block (s := S2x128x64) S1x128x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x128.size a ≤ S2x1x128.size a
  hwx2_6 : ∀ i : grid2.Coords, EltTy.bits .f32 = 32 ∨ (Rect.block (s := S2x1x128) S1x1x128.size (cc2_transform_6 i) (hinb2_6 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S4000x96_S96x64_S4000x64_1_0_0_1_n_n : DotDims S4000x96 S96x64 S4000x64 where
  lhsContracting := [1]
  rhsContracting := [0]
  lhsNonContracting := [0]
  rhsNonContracting := [1]
  lhsBatch := []
  rhsBatch := []
  wf := dot_S4000x96_S96x64_S4000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S2000x128_S2000x64_S128x64_0_0_1_1_n_n : DotDims S2000x128 S2000x64 S128x64 where
  lhsContracting := [0]
  rhsContracting := [0]
  lhsNonContracting := [1]
  rhsNonContracting := [1]
  lhsBatch := []
  rhsBatch := []
  wf := dot_S2000x128_S2000x64_S128x64_0_0_1_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x2_S128x2_1_0_0_1_n_n : DotDims S128x32 S32x2 S128x2 where
  lhsContracting := [1]
  rhsContracting := [0]
  lhsNonContracting := [0]
  rhsNonContracting := [1]
  lhsBatch := []
  rhsBatch := []
  wf := dot_S128x32_S32x2_S128x2_1_0_0_1_n_n_wf

abbrev win0_0 : Pipeline.Window sig grid0 :=
  Pipeline.Window.ofSpec (Memref.whole main_arg0) S4000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S96x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v37_0) S1x128x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v37_1) S1x1x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

class Facts : Prop extends Facts₀ where

variable [Facts]
-- ==== ReferenceIdeal.lean ====
abbrev S100000x96 : Shape := ⟨2, ![100000, 96]⟩
abbrev S2x3200000 : Shape := ⟨2, ![2, 3200000]⟩
abbrev S100000 : Shape := ⟨1, ![100000]⟩
abbrev S96x64 : Shape := ⟨2, ![96, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x64 : Shape := ⟨2, ![100000, 64]⟩
abbrev S3200000x64 : Shape := ⟨2, ![3200000, 64]⟩
abbrev S100000x1 : Shape := ⟨2, ![100000, 1]⟩
abbrev S1x64 : Shape := ⟨2, ![1, 64]⟩
abbrev S128x64 : Shape := ⟨2, ![128, 64]⟩
abbrev S128 : Shape := ⟨1, ![128]⟩
abbrev S128x1 : Shape := ⟨2, ![128, 1]⟩
abbrev S128x32 : Shape := ⟨2, ![128, 32]⟩
abbrev S1x32 : Shape := ⟨2, ![1, 32]⟩
abbrev S128x2 : Shape := ⟨2, ![128, 2]⟩
abbrev S1x2 : Shape := ⟨2, ![1, 2]⟩

abbrev nBuf : Space → Nat
  | .hbm => 138
  | .vmem => 0
  | .smem => 0
  | _ => 0

abbrev hbmTy0_0 (i : Nat) : BufTy := match i % 128 with
  | 0 => ⟨S100000x96, .f32⟩
  | 1 => ⟨S2x3200000, .i32⟩
  | 2 => ⟨S100000, .i32⟩
  | 3 => ⟨S96x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x32, .f32⟩
  | 10 => ⟨S32, .f32⟩
  | 11 => ⟨S32x2, .f32⟩
  | 12 => ⟨S2, .f32⟩
  | 13 => ⟨S1x3200000, .i32⟩
  | 14 => ⟨S3200000, .i32⟩
  | 15 => ⟨S1x3200000, .i32⟩
  | 16 => ⟨S3200000, .i32⟩
  | 17 => ⟨S_, .f32⟩
  | 18 => ⟨S3200000, .f32⟩
  | 19 => ⟨S_, .f32⟩
  | 20 => ⟨S100000, .f32⟩
  | 21 => ⟨S3200000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000, .f32⟩
  | 45 => ⟨S3200000, .f32⟩
  | 46 => ⟨S100000x64, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000x64, .f32⟩
  | 56 => ⟨S3200000x1, .f32⟩
  | 57 => ⟨S3200000x64, .f32⟩
  | 58 => ⟨S3200000x64, .f32⟩
  | 59 => ⟨S_, .f32⟩
  | 60 => ⟨S100000x64, .f32⟩
  | 61 => ⟨S3200000x1, .i32⟩
  | 62 => ⟨S100000x64, .f32⟩
  | 63 => ⟨S100000, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .i32⟩
  | 76 => ⟨S3200000, .i32⟩
  | 77 => ⟨S3200000, .i1⟩
  | 78 => ⟨S_, .i32⟩
  | 79 => ⟨S3200000, .i32⟩
  | 80 => ⟨S3200000, .i32⟩
  | 81 => ⟨S3200000, .i32⟩
  | 82 => ⟨S3200000x1, .i32⟩
  | 83 => ⟨S3200000x64, .f32⟩
  | 84 => ⟨S3200000x1, .f32⟩
  | 85 => ⟨S3200000x64, .f32⟩
  | 86 => ⟨S3200000x64, .f32⟩
  | 87 => ⟨S_, .f32⟩
  | 88 => ⟨S100000x64, .f32⟩
  | 89 => ⟨S3200000x1, .i32⟩
  | 90 => ⟨S100000x64, .f32⟩
  | 91 => ⟨S100000, .f32⟩
  | 92 => ⟨S100000x1, .f32⟩
  | 93 => ⟨S100000x64, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S_, .f32⟩
  | 103 => ⟨S128x64, .f32⟩
  | 104 => ⟨S100000x1, .i32⟩
  | 105 => ⟨S128x64, .f32⟩
  | 106 => ⟨S_, .f32⟩
  | 107 => ⟨S100000, .f32⟩
  | 108 => ⟨S_, .f32⟩
  | 109 => ⟨S128, .f32⟩
  | 110 => ⟨S100000x1, .i32⟩
  | 111 => ⟨S128, .f32⟩
  | 112 => ⟨S_, .f32⟩
  | 113 => ⟨S128, .f32⟩
  | 114 => ⟨S128, .f32⟩
  | 115 => ⟨S128x1, .f32⟩
  | 116 => ⟨S128x64, .f32⟩
  | 117 => ⟨S128x64, .f32⟩
  | 118 => ⟨S128x64, .f32⟩
  | 119 => ⟨S1x64, .f32⟩
  | 120 => ⟨S128x64, .f32⟩
  | 121 => ⟨S128x64, .f32⟩
  | 122 => ⟨S_, .f32⟩
  | 123 => ⟨S_, .f32⟩
  | 124 => ⟨S128x64, .f32⟩
  | 125 => ⟨S128x64, .i1⟩
  | 126 => ⟨S_, .f32⟩
  | 127 => ⟨S128x64, .f32⟩
  | _ => ⟨S100000x96, .f32⟩

abbrev hbmTy0_1 (i : Nat) : BufTy := match i % 128 with
  | 0 => ⟨S128x64, .f32⟩
  | 1 => ⟨S128x64, .f32⟩
  | 2 => ⟨S128x32, .f32⟩
  | 3 => ⟨S1x32, .f32⟩
  | 4 => ⟨S128x32, .f32⟩
  | 5 => ⟨S128x32, .f32⟩
  | 6 => ⟨S128x2, .f32⟩
  | 7 => ⟨S1x2, .f32⟩
  | 8 => ⟨S128x2, .f32⟩
  | 9 => ⟨S128x2, .f32⟩
  | _ => ⟨S100000x96, .f32⟩

abbrev hbmTy (i : Nat) : BufTy := match i / 128 with
  | 0 => hbmTy0_0 i
  | 1 => hbmTy0_1 i
  | _ => ⟨S100000x96, .f32⟩

abbrev bufTy : (tb : Table) → Fin (tcTables nBuf tb) → BufTy
  | .hbm, ⟨i, _⟩ => hbmTy i
  | _, _ => ⟨S100000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call1_cst : Ref sig .tc := ⟨.hbm, 99, rfl⟩
abbrev main_call1_v0 : Ref sig .tc := ⟨.hbm, 100, rfl⟩
abbrev main_v71 : Ref sig .tc := ⟨.hbm, 101, rfl⟩
abbrev main_cst_11 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_12 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_15 : Ref sig .tc := ⟨.hbm, 122, rfl⟩
abbrev main_call2_cst : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S1x64_S128x64_0_1 : S1x64.BroadcastsInDim S128x64 (![0, 1] : Fin 2 → Fin S128x64.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x96_S96x64_S100000x64_1_0_0_1_n_n_wf : DotDims.WF S100000x96 S96x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x64_S128x64_1_0_0_1_n_n_wf : DotDims.WF S128x64 S64x64 S128x64 [1] [0] [0] [1] [] []
  dot_S128x64_S64x32_S128x32_1_0_0_1_n_n_wf : DotDims.WF S128x64 S64x32 S128x32 [1] [0] [0] [1] [] []
  dot_S128x32_S32x2_S128x2_1_0_0_1_n_n_wf : DotDims.WF S128x32 S32x2 S128x2 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x96_S96x64_S100000x64_1_0_0_1_n_n : DotDims S100000x96 S96x64 S100000x64 where
  lhsContracting := [1]
  rhsContracting := [0]
  lhsNonContracting := [0]
  rhsNonContracting := [1]
  lhsBatch := []
  rhsBatch := []
  wf := dot_S100000x96_S96x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x2_S128x2_1_0_0_1_n_n : DotDims S128x32 S32x2 S128x2 where
  lhsContracting := [1]
  rhsContracting := [0]
  lhsNonContracting := [0]
  rhsNonContracting := [1]
  lhsBatch := []
  rhsBatch := []
  wf := dot_S128x32_S32x2_S128x2_1_0_0_1_n_n_wf

class Facts : Prop extends Facts₀ where

variable [Facts]
-- ==== Proof.BReg0.lean ====
import proofs.«401631_j30562987278347_3_alg».proof.Proof.Gen.Kernel.Launch
import proofs.«401631_j30562987278347_3_alg».proof.Proof.Gen.Kernel.Skeleton
import proofs.«401631_j30562987278347_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S4000x96 := Rect.unit (s := S4000x96) ![0, 0] S4000x96.size inb_S4000x96_S4000x96_0_0
abbrev r0_1 : Rect S96x64 := Rect.unit (s := S96x64) ![0, 0] S96x64.size inb_S96x64_S96x64_0_0
abbrev r0_2 : Rect S4000x1 := Rect.unit (s := S4000x1) ![0, 0] S4000x1.size inb_S4000x1_S4000x1_0_0
abbrev r0_3 : Rect S4000x64 := Rect.unit (s := S4000x64) ![0, 0] S4000x64.size inb_S4000x64_S4000x64_0_0

def out0_3 (x0 : Vec F S4000x96 .f32) (x1 : Vec F S96x64 .f32) (x2 : Vec F S4000x1 .f32) : Vec F S4000x64 .f32 :=
  View.canon [⟨r0_3, k0_pay1 (View.ld x0 r0_0) (View.ld x1 r0_1) (View.ld x2 r0_2)⟩]

theorem sound_kernel0 (c : Dev nD) (E : Set ℕ) (i : grid0.Coords)
    (arg1 : Memref sig .tc .vmem S4000x96 .f32) (harg1 : arg1.IsWhole) (arg2 : Memref sig .tc .vmem S96x64 .f32) (harg2 : arg2.IsWhole)
    (arg3 : Memref sig .tc .vmem S4000x1 .f32) (harg3 : arg3.IsWhole) (arg4 : Memref sig .tc .vmem S4000x64 .f32) (harg4 : arg4.IsWhole)
    (x0 : Vec F S4000x96 .f32) (x1 : Vec F S96x64 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_scaled_kernel i arg1 harg1 arg2 harg2 arg3 harg3 arg4 harg4) K := by
  simp only [cc0__matmul_scaled_kernel_eq_skeleton]; unfold cc0__matmul_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (Dat.before_in_eq_fetched _ 0 rfl (fun _ => rfl) (fun _ _ _ => rfl) (fun _ => by dsimp only [dat0]; rfl) t d).trans rfl
theorem before0_1 (c : Dev nD) (t : Fin cfg0.N) (d) : (dat0 V c).before 1 t d = iblk0 V c 1 t :=
  (Dat.before_in_eq_fetched _ 1 rfl (fun _ => rfl) (fun _ _ _ => rfl) (fun _ => by dsimp only [dat0]; rfl) t d).trans rfl
theorem before0_2 (c : Dev nD) (t : Fin cfg0.N) (d) : (dat0 V c).before 2 t d = iblk0 V c 2 t :=
  (Dat.before_in_eq_fetched _ 2 rfl (fun _ => rfl) (fun _ _ _ => rfl) (fun _ => by dsimp only [dat0]; rfl) t d).trans rfl

theorem body_obligation0 (c : Dev nD) : BodyObligation (dat0 (F := F) V c) (defs₀ (F := F)) Variants.none () Set.univ := fun t => by
  rw [bigSep_W0, bigSep_W0]
  simp only [before0_0, before0_1, before0_2]
  dsimp only [dat0, Dat.owesAt, Dat.bound]
  change _ ⊢ wp _ _ _ (bodyAt0 t) _
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  iframe H0 H1 H2
  isplitl [H3]; · iexists _; iexact H3
  iintro ⟨H0, H1, H2, H3⟩
  iframe

end Cert.Kernel.Hand

end
-- ==== Proof.BReg1.lean ====
import proofs.«401631_j30562987278347_3_alg».proof.Proof.Gen.Kernel.Launch
import proofs.«401631_j30562987278347_3_alg».proof.Proof.Gen.Kernel.Skeleton
import proofs.«401631_j30562987278347_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4000x1 := Rect.unit (s := S4000x1) ![0, 0] S4000x1.size inb_S4000x1_S4000x1_0_0
abbrev r1_1 : Rect S4000x64 := Rect.unit (s := S4000x64) ![0, 0] S4000x64.size inb_S4000x64_S4000x64_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0

def out1_5 (x0 : Vec F S4000x64 .f32) (x1 : Vec F S4000x64 .f32) (x2 : Vec F S4000x1 .f32) (x3 : Vec F S1x64 .f32) (x4 : Vec F S64x64 .f32) :
    Vec F S4000x64 .f32 :=
  View.canon [⟨r1_1, k1_pay1 (View.ld x2 r1_0) (View.ld x0 r1_1) (View.ld x1 r1_1) (View.ld x3 r1_2) (View.ld x4 r1_3)⟩]

theorem sound_kernel1 (c : Dev nD) (E : Set ℕ) (i : grid1.Coords)
    (arg0 : Memref sig .tc .vmem S4000x64 .f32) (harg0 : arg0.IsWhole) (arg1 : Memref sig .tc .vmem S4000x64 .f32) (harg1 : arg1.IsWhole)
    (arg2 : Memref sig .tc .vmem S4000x1 .f32) (harg2 : arg2.IsWhole) (arg3 : Memref sig .tc .vmem S1x64 .f32) (harg3 : arg3.IsWhole)
    (arg4 : Memref sig .tc .vmem S64x64 .f32) (harg4 : arg4.IsWhole) (arg5 : Memref sig .tc .vmem S4000x64 .f32) (harg5 : arg5.IsWhole)
    (x0 : Vec F S4000x64 .f32) (x1 : Vec F S4000x64 .f32) (x2 : Vec F S4000x1 .f32) (x3 : Vec F S1x64 .f32) (x4 : Vec F S64x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E
          (cc1__fused_combine_matmul_kernel i arg0 harg0 arg1 harg1 arg2 harg2 arg3 harg3 arg4 harg4 arg5 harg5) K := by
  simp only [cc1__fused_combine_matmul_kernel_eq_skeleton]; unfold cc1__fused_combine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S4000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  (Dat.before_in_eq_fetched _ 0 rfl (fun _ => rfl) (fun _ _ _ => rfl) (fun _ => by dsimp only [dat1]; rfl) t d).trans rfl
theorem before1_1 (c : Dev nD) (t : Fin cfg1.N) (d) : (dat1 V c).before 1 t d = iblk1 V c 1 t :=
  (Dat.before_in_eq_fetched _ 1 rfl (fun _ => rfl) (fun _ _ _ => rfl) (fun _ => by dsimp only [dat1]; rfl) t d).trans rfl
theorem before1_2 (c : Dev nD) (t : Fin cfg1.N) (d) : (dat1 V c).before 2 t d = iblk1 V c 2 t :=
  (Dat.before_in_eq_fetched _ 2 rfl (fun _ => rfl) (fun _ _ _ => rfl) (fun _ => by dsimp only [dat1]; rfl) t d).trans rfl
theorem before1_3 (c : Dev nD) (t : Fin cfg1.N) (d) : (dat1 V c).before 3 t d = iblk1 V c 3 t :=
  (Dat.before_in_eq_fetched _ 3 rfl (fun _ => rfl) (fun _ _ _ => rfl) (fun _ => by dsimp only [dat1]; rfl) t d).trans rfl
theorem before1_4 (c : Dev nD) (t : Fin cfg1.N) (d) : (dat1 V c).before 4 t d = iblk1 V c 4 t :=
  (Dat.before_in_eq_fetched _ 4 rfl (fun _ => rfl) (fun _ _ _ => rfl) (fun _ => by dsimp only [dat1]; rfl) t d).trans rfl

theorem body_obligation1 (c : Dev nD) : BodyObligation (dat1 (F := F) V c) (defs₀ (F := F)) Variants.none () Set.univ := fun t => by
  rw [bigSep_W1, bigSep_W1]
  simp only [before1_0, before1_1, before1_2, before1_3, before1_4]
  dsimp only [dat1, Dat.owesAt, Dat.bound]
  change _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe

end Cert.Kernel.Hand

end
-- ==== Proof.BReg2.lean ====
import proofs.«401631_j30562987278347_3_alg».proof.Proof.Gen.Kernel.Launch
import proofs.«401631_j30562987278347_3_alg».proof.Proof.Gen.Kernel.Skeleton
import proofs.«401631_j30562987278347_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 25 = 0 :=
  (by decide +kernel : ∀ t : Fin grid2.N, cond2_0 (grid2.coords t) ↔ t.val % 25 = 0)

abbrev cond2_1 (i : grid2.Coords) : Prop := k2_cond2 i = 1#1
theorem hcond2_1 : ∀ t : Fin cfg2.N, cond2_1 (grid2.coords t) ↔ t.val % 25 = 24 :=
  (by decide +kernel : ∀ t : Fin grid2.N, cond2_1 (grid2.coords t) ↔ t.val % 25 = 24)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_1 (grid2.coords t) → cfg2.idle 5 (grid2.coords t) = true := by decide +kernel
theorem idleAt2_6 : ∀ t : Fin cfg2.N, ¬cond2_1 (grid2.coords t) → cfg2.idle 6 (grid2.coords t) = true := by decide +kernel
theorem noFlush2_5 : ∀ t : Fin cfg2.N, ¬cond2_1 (grid2.coords t) → (cfg2.win 5).flush t = false := by decide +kernel
theorem noFlush2_6 : ∀ t : Fin cfg2.N, ¬cond2_1 (grid2.coords t) → (cfg2.win 6).flush t = false := by decide +kernel
theorem liveAt2_5 : ∀ t : Fin cfg2.N, cond2_1 (grid2.coords t) → cfg2.idle 5 (grid2.coords t) = false := by decide +kernel
theorem liveAt2_6 : ∀ t : Fin cfg2.N, cond2_1 (grid2.coords t) → cfg2.idle 6 (grid2.coords t) = false := by decide +kernel

def step2 (c : Dev nD) (t : Fin cfg2.N) (p : Vec F S128x64 .f32 × Vec F S1x128 .f32) : Vec F S128x64 .f32 × Vec F S1x128 .f32 :=
  (k2_pay7 (iblk2 V c 2 t) (iblk2 V c 0 t) (iblk2 V c 1 t) (iblk2 V c 3 t) (iblk2 V c 4 t) p.1,
   k2_pay1 p.2 (k2_pay8 (iblk2 V c 4 t)))

def acc2 (c : Dev nD) : (n : ℕ) → n < cfg2.N → Vec F S128x64 .f32 × Vec F S1x128 .f32
  | 0, hn => step2 V c ⟨0, hn⟩ (k2_pay4, k2_pay5)
  | n + 1, hn =>
    if (n + 1) % 25 = 0 then step2 V c ⟨n + 1, hn⟩ (k2_pay4, k2_pay5)
    else step2 V c ⟨n + 1, hn⟩ (acc2 c n (Nat.lt_of_succ_lt hn))

theorem acc2_first (c : Dev nD) (t : Fin cfg2.N) (h0 : t.val % 25 = 0) :
    acc2 V c t.val t.isLt = step2 V c t (k2_pay4, k2_pay5) := by
  obtain ⟨n, hn⟩ := t
  cases n with
  | zero => rfl
  | succ n => exact if_pos h0

theorem acc2_next (c : Dev nD) (t : Fin cfg2.N) (h0 : ¬t.val % 25 = 0) :
    acc2 V c t.val t.isLt = step2 V c t (acc2 V c (t.val - 1) (Nat.lt_of_le_of_lt (Nat.sub_le _ _) t.isLt)) := by
  obtain ⟨n, hn⟩ := t
  cases n with
  | zero => exact absurd (Nat.zero_mod _) h0
  | succ n => exact if_neg h0

abbrev scM2_0 : Memref sig .tc .vmem S128x64 .f32 := Memref.whole cc2_scratch0
abbrev scM2_1 : Memref sig .tc .vmem S1x128 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA
  rw [Pipeline.scopedRest_split_of_list spec2 c [cc2_scratch0, cc2_scratch1] (by decide) (by decide)]
  simp only [scM2_0, scM2_1, owns_whole]
  rfl

def PhiS (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2) ∗ rest2 c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM2_0 fullShare (acc2 V c n hn).1 ∗ owns (c : Thread nD τ) scM2_1 fullShare (acc2 V c n hn).2) ∗ rest2 c) ∗ (∃ r, prngReg c r)) := rfl

theorem PhiS_pos (c : Dev nD) (n : ℕ) (h : n ≤ cfg2.N) (hz : n ≠ 0) :
    PhiS V c n h = iprop(iprop(iprop(owns (c : Thread nD τ) scM2_0 fullShare (acc2 V c (n - 1) (by omega)).1 ∗ owns (c : Thread nD τ) scM2_1 fullShare (acc2 V c (n - 1) (by omega)).2) ∗ rest2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay2 (acc2 V c t.val t.isLt).1
    | ⟨6, _⟩ => k2_pay3 (acc2 V c t.val t.isLt).2
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay2 (acc2 V c t.val t.isLt).1 := by dsimp only [dat2]
theorem after2_6 (c : Dev nD) (t : Fin cfg2.N) : (dat2 V c).after 6 t = k2_pay3 (acc2 V c t.val t.isLt).2 := by dsimp only [dat2]

theorem before2_0 (c : Dev nD) (t : Fin cfg2.N) (d) : (dat2 V c).before 0 t d = iblk2 V c 0 t :=
  (Dat.before_in_eq_fetched _ 0 rfl (fun _ => rfl) (fun _ _ _ => rfl) (fun _ => by dsimp only [dat2]; rfl) t d).trans rfl
theorem before2_1 (c : Dev nD) (t : Fin cfg2.N) (d) : (dat2 V c).before 1 t d = iblk2 V c 1 t :=
  (Dat.before_in_eq_fetched _ 1 rfl (fun _ => rfl) (fun _ _ _ => rfl) (fun _ => by dsimp only [dat2]; rfl) t d).trans rfl
theorem before2_2 (c : Dev nD) (t : Fin cfg2.N) (d) : (dat2 V c).before 2 t d = iblk2 V c 2 t :=
  (Dat.before_in_eq_fetched _ 2 rfl (fun _ => rfl) (fun _ _ _ => rfl) (fun _ => by dsimp only [dat2]; rfl) t d).trans rfl
theorem before2_3 (c : Dev nD) (t : Fin cfg2.N) (d) : (dat2 V c).before 3 t d = iblk2 V c 3 t :=
  (Dat.before_in_eq_fetched _ 3 rfl (fun _ => rfl) (fun _ _ _ => rfl) (fun _ => by dsimp only [dat2]; rfl) t d).trans rfl
theorem before2_4 (c : Dev nD) (t : Fin cfg2.N) (d) : (dat2 V c).before 4 t d = iblk2 V c 4 t :=
  (Dat.before_in_eq_fetched _ 4 rfl (fun _ => rfl) (fun _ _ _ => rfl) (fun _ => by dsimp only [dat2]; rfl) t d).trans rfl

theorem leaves_live (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

theorem rdI {α β : Type} (P : α → sProp 𝕄) (r : α → β) (a : α) : P a ⊢ iprop(∃ f, ⌜r f = r a⌝ ∗ P f) := by
  iintro H; iexists a; isplitr; · ipureintro; rfl
  iexact H

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (E : Set ℕ) (i : grid2.Coords) (arg2 : Memref sig .tc .vmem S2000x64 .f32) (harg2 : arg2.IsWhole) (arg3 : Memref sig .tc .vmem S2000x64 .f32) (harg3 : arg3.IsWhole) (arg4 : Memref sig .tc .vmem S2000x1 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S1x128x64 .f32) (harg7 : arg7.IsWhole) (arg8 : Memref sig .tc .vmem S1x1x128 .f32) (harg8 : arg8.IsWhole) (arg9 : Memref sig .tc .vmem S128x64 .f32) (harg9 : arg9.IsWhole) (arg10 : Memref sig .tc .vmem S1x128 .f32) (harg10 : arg10.IsWhole)

set_option maxHeartbeats 1000000 in
theorem sound_kernel2_A
    (hc0 : cond2_0 i) (hc1 : ¬cond2_1 i) (x0 : Vec F S2000x64 .f32) (x1 : Vec F S2000x64 .f32) (x2 : Vec F S2000x1 .f32) (x3 : Vec F S1x64 .f32) (x4 : Vec F S2000x1 .i32) (y5 : Vec F S1x128x64 .f32) (y6 : Vec F S1x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6
            ∗ owns (c : Thread nD τ) arg9 fullShare (k2_pay7 x2 x0 x1 x3 x4 k2_pay4) ∗ owns (c : Thread nD τ) arg10 fullShare (k2_pay1 k2_pay5 (k2_pay8 x4))) -∗ K ⟨⟩))
      ⊢ wp frame (wpE (defs₀ (F := F)) Variants.none c none) E (cc2__pool_fused_kernel i arg2 harg2 arg3 harg3 arg4 harg4 arg5 harg5 arg6 harg6 arg7 harg7 arg8 harg8 arg9 harg9 arg10 harg10) K := by
  simp only [cc2__pool_fused_kernel_eq_skeleton]; unfold cc2__pool_fused_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
  subst hf0; subst hf1; subst hf2; subst hf3; subst hf4; subst hf5; subst hf6
  sl_exec (disch := first | exact hc0 | exact hc1)
  sl_step
  iapply Hk
  isplitl [H0]; · iapply (rdI _ _ f0); iexact H0
  isplitl [H1]; · iapply (rdI _ _ f1); iexact H1
  isplitl [H2]; · iapply (rdI _ _ f2); iexact H2
  isplitl [H3]; · iapply (rdI _ _ f3); iexact H3
  isplitl [H4]; · iapply (rdI _ _ f4); iexact H4
  isplitl [H5]; · iapply (rdI _ _ f5); iexact H5
  isplitl [H6]; · iapply (rdI _ _ f6); iexact H6
  isplitl [HS0]
  · iexists _; isplitr
    swap; · iexact HS0
    ipureintro
    sl_unfold_words
    rw [View.read_writes_eq_canon _ _ _ (fun y => ⟨_, List.Mem.head _, View.mem_set_unit_zero hz2 inb_S128x64_S128x64_0_0 y⟩), View.canon_cons_unit_zero (S := S128x64) hz2,
      View.readCov_unit_zero (S := S128x64) _ hz2]
    simp only [View.readAt_eq_ld, View.ld_unit_zero (S := S2000x1) hz2, View.ld_unit_zero (S := S2000x64) hz2, View.ld_unit_zero (S := S1x64) hz2, View.ld_unit_zero (S := S128x64) hz2, View.ld_unit_zero (S := S1x128) hz2]
  iexists _; isplitr
  swap; · iexact HS1
  ipureintro
  sl_unfold_words
  rw [View.read_writes_eq_canon _ _ _ (fun y => ⟨_, List.Mem.head _, View.mem_set_unit_zero hz2 inb_S1x128_S1x128_0_0 y⟩), View.canon_cons_unit_zero (S := S1x128) hz2,
    View.readCov_unit_zero (S := S1x128) _ hz2]
  simp only [View.readAt_eq_ld, View.ld_unit_zero (S := S2000x1) hz2, View.ld_unit_zero (S := S2000x64) hz2, View.ld_unit_zero (S := S1x64) hz2, View.ld_unit_zero (S := S128x64) hz2, View.ld_unit_zero (S := S1x128) hz2]

set_option maxHeartbeats 1000000 in
theorem sound_kernel2_B
    (hc0 : ¬cond2_0 i) (hc1 : ¬cond2_1 i) (x0 : Vec F S2000x64 .f32) (x1 : Vec F S2000x64 .f32) (x2 : Vec F S2000x1 .f32) (x3 : Vec F S1x64 .f32) (x4 : Vec F S2000x1 .i32) (y5 : Vec F S1x128x64 .f32) (y6 : Vec F S1x1x128 .f32)
    (s0 : Vec F S128x64 .f32) (s1 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6
            ∗ owns (c : Thread nD τ) arg9 fullShare (k2_pay7 x2 x0 x1 x3 x4 s0) ∗ owns (c : Thread nD τ) arg10 fullShare (k2_pay1 s1 (k2_pay8 x4))) -∗ K ⟨⟩))
      ⊢ wp frame (wpE (defs₀ (F := F)) Variants.none c none) E (cc2__pool_fused_kernel i arg2 harg2 arg3 harg3 arg4 harg4 arg5 harg5 arg6 harg6 arg7 harg7 arg8 harg8 arg9 harg9 arg10 harg10) K := by
  simp only [cc2__pool_fused_kernel_eq_skeleton]; unfold cc2__pool_fused_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  subst hf0; subst hf1; subst hf2; subst hf3; subst hf4; subst hf5; subst hf6; subst hfs0; subst hfs1
  sl_exec (disch := first | exact hc0 | exact hc1)
  sl_step
  iapply Hk
  isplitl [H0]; · iapply (rdI _ _ f0); iexact H0
  isplitl [H1]; · iapply (rdI _ _ f1); iexact H1
  isplitl [H2]; · iapply (rdI _ _ f2); iexact H2
  isplitl [H3]; · iapply (rdI _ _ f3); iexact H3
  isplitl [H4]; · iapply (rdI _ _ f4); iexact H4
  isplitl [H5]; · iapply (rdI _ _ f5); iexact H5
  isplitl [H6]; · iapply (rdI _ _ f6); iexact H6
  isplitl [HS0]
  · iexists _; isplitr
    swap; · iexact HS0
    ipureintro
    rw [View.read_writes_eq_canon _ _ _ (fun y => ⟨_, List.Mem.head _, View.mem_set_unit_zero hz2 inb_S128x64_S128x64_0_0 y⟩), View.canon_unit_zero hz2]
    simp only [View.readAt_eq_ld, View.ld_unit_zero (S := S2000x1) hz2, View.ld_unit_zero (S := S2000x64) hz2, View.ld_unit_zero (S := S1x64) hz2, View.ld_unit_zero (S := S128x64) hz2, View.ld_unit_zero (S := S1x128) hz2]
  iexists _; isplitr
  swap; · iexact HS1
  ipureintro
  sl_unfold_words
  rw [View.read_writes_eq_canon _ _ _ (fun y => ⟨_, List.Mem.head _, View.mem_set_unit_zero hz2 inb_S1x128_S1x128_0_0 y⟩), View.canon_unit_zero (S := S1x128) hz2]
  simp only [View.readAt_eq_ld, View.ld_unit_zero (S := S2000x1) hz2, View.ld_unit_zero (S := S2000x64) hz2, View.ld_unit_zero (S := S1x64) hz2, View.ld_unit_zero (S := S128x64) hz2, View.ld_unit_zero (S := S1x128) hz2]

set_option maxHeartbeats 1000000 in
theorem sound_kernel2_C
    (hc0 : ¬cond2_0 i) (hc1 : cond2_1 i) (x0 : Vec F S2000x64 .f32) (x1 : Vec F S2000x64 .f32) (x2 : Vec F S2000x1 .f32) (x3 : Vec F S1x64 .f32) (x4 : Vec F S2000x1 .i32)
    (s0 : Vec F S128x64 .f32) (s1 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k2_pay2 (k2_pay7 x2 x0 x1 x3 x4 s0)) ∗ owns (c : Thread nD τ) arg8 fullShare (k2_pay3 (k2_pay1 s1 (k2_pay8 x4)))
            ∗ owns (c : Thread nD τ) arg9 fullShare (k2_pay7 x2 x0 x1 x3 x4 s0) ∗ owns (c : Thread nD τ) arg10 fullShare (k2_pay1 s1 (k2_pay8 x4))) -∗ K ⟨⟩))
      ⊢ wp frame (wpE (defs₀ (F := F)) Variants.none c none) E (cc2__pool_fused_kernel i arg2 harg2 arg3 harg3 arg4 harg4 arg5 harg5 arg6 harg6 arg7 harg7 arg8 harg8 arg9 harg9 arg10 harg10) K := by
  simp only [cc2__pool_fused_kernel_eq_skeleton]; unfold cc2__pool_fused_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  subst hf0; subst hf1; subst hf2; subst hf3; subst hf4; subst hfs0; subst hfs1
  sl_exec (disch := first | exact hc0 | exact hc1)
  sl_step
  iapply Hk
  isplitl [H0]; · iapply (rdI _ _ f0); iexact H0
  isplitl [H1]; · iapply (rdI _ _ f1); iexact H1
  isplitl [H2]; · iapply (rdI _ _ f2); iexact H2
  isplitl [H3]; · iapply (rdI _ _ f3); iexact H3
  isplitl [H4]; · iapply (rdI _ _ f4); iexact H4
  isplitl [H5]
  · iexists _; isplitr
    swap; · iexact H5
    ipureintro
    sl_unfold_words
    rw [View.read_writes_eq_canon _ _ _ (fun y => ⟨_, List.Mem.head _, View.mem_set_unit_zero hz3 inb_S1x128x64_S1x128x64_0_0_0 y⟩), View.canon_unit_zero (S := S1x128x64) hz3,
      View.readCov_unit_zero (S := S128x64) _ hz2]
    simp only [View.readAt_eq_ld, View.ld_unit_zero (S := S2000x1) hz2, View.ld_unit_zero (S := S2000x64) hz2, View.ld_unit_zero (S := S1x64) hz2, View.ld_unit_zero (S := S128x64) hz2, View.ld_unit_zero (S := S1x128) hz2]
  isplitl [H6]
  · iexists _; isplitr
    swap; · iexact H6
    ipureintro
    sl_unfold_words
    rw [View.read_writes_eq_canon _ _ _ (fun y => ⟨_, List.Mem.head _, View.mem_set_unit_zero hz3 inb_S1x1x128_S1x1x128_0_0_0 y⟩), View.canon_unit_zero (S := S1x1x128) hz3,
      View.readCov_unit_zero (S := S1x128) _ hz2]
    simp only [View.readAt_eq_ld, View.ld_unit_zero (S := S2000x1) hz2, View.ld_unit_zero (S := S2000x64) hz2, View.ld_unit_zero (S := S1x64) hz2, View.ld_unit_zero (S := S128x64) hz2, View.ld_unit_zero (S := S1x128) hz2]
  isplitl [HS0]
  · iexists _; isplitr
    swap; · iexact HS0
    ipureintro
    sl_unfold_words
    rw [View.read_writes_eq_canon _ _ _ (fun y => ⟨_, List.Mem.head _, View.mem_set_unit_zero hz2 inb_S128x64_S128x64_0_0 y⟩), View.canon_unit_zero hz2]
    simp only [View.readAt_eq_ld, View.ld_unit_zero (S := S2000x1) hz2, View.ld_unit_zero (S := S2000x64) hz2, View.ld_unit_zero (S := S1x64) hz2, View.ld_unit_zero (S := S128x64) hz2, View.ld_unit_zero (S := S1x128) hz2]
  iexists _; isplitr
  swap; · iexact HS1
  ipureintro
  sl_unfold_words
  rw [View.read_writes_eq_canon _ _ _ (fun y => ⟨_, List.Mem.head _, View.mem_set_unit_zero hz2 inb_S1x128_S1x128_0_0 y⟩), View.canon_unit_zero (S := S1x128) hz2]
  simp only [View.readAt_eq_ld, View.ld_unit_zero (S := S2000x1) hz2, View.ld_unit_zero (S := S2000x64) hz2, View.ld_unit_zero (S := S1x64) hz2, View.ld_unit_zero (S := S128x64) hz2, View.ld_unit_zero (S := S1x128) hz2]

end

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

theorem PhiS_any (c : Dev nD) (n : ℕ) (h : n ≤ cfg2.N) :
    PhiS V c n h ⊢ iprop(iprop(iprop((∃ d, owns (c : Thread nD τ) scM2_0 fullShare d) ∗ (∃ d, owns (c : Thread nD τ) scM2_1 fullShare d)) ∗ rest2 c) ∗ (∃ r, prngReg c r)) := by
  cases n with
  | zero => rw [PhiS_zero V c 0 h rfl, PhiA2_eq]; try exact Idealize.SL.BI.Entails.refl _
  | succ n =>
    rw [PhiS_succ]
    iintro ⟨⟨⟨HS0, HS1⟩, HR⟩, Hg⟩
    iframe HR Hg
    isplitl [HS0] <;> (iexists _; iassumption)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS V c (t.val + 1) t.isLt from rfl, PhiS_succ]
  rw [leaves_live V c 0 t (liveAt2_0 t), after2_0]
  rw [leaves_live V c 1 t (liveAt2_1 t), after2_1]
  rw [leaves_live V c 2 t (liveAt2_2 t), after2_2]
  rw [leaves_live V c 3 t (liveAt2_3 t), after2_3]
  rw [leaves_live V c 4 t (liveAt2_4 t), after2_4]
  rw [PhiS_castSucc]
  have hN : t.val < 50 := lt_of_lt_of_eq t.isLt (show cfg2.N = 50 from N_2)
  by_cases h0 : t.val % 25 = 0
  · have h1 : ¬t.val % 25 = 24 := by omega
    have hc0 : cond2_0 (grid2.coords t) := (hcond2_0 t).mpr h0
    have hc1 : ¬cond2_1 (grid2.coords t) := fun h => h1 ((hcond2_1 t).mp h)
    rw [Dat.leavesExact_idle (dat2 V c) 5 t (idleAt2_5 t hc1) (noFlush2_5 t hc1),
      Dat.leavesExact_idle (dat2 V c) 6 t (idleAt2_6 t hc1) (noFlush2_6 t hc1)]
    rw [acc2_first V c t h0]
    dsimp only [step2]
    by_cases hz : t.val = 0
    · rw [PhiS_zero V c _ _ hz, PhiA2_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_A c Set.univ (grid2.coords t) _ _ _ _ _ _ _ _ _ _ _ _ _ _ _ _ _ _ hc0 hc1 (iblk2 V c 0 t) (iblk2 V c 1 t) (iblk2 V c 2 t) (iblk2 V c 3 t) (iblk2 V c 4 t) _ _ _)
      iframe H0 H1 H2 H3 H4 H5 H6 HS0 HS1
      iintro ⟨H0, H1, H2, H3, H4, H5, H6, HS0, HS1⟩
      iframe HS0 HS1 HR Hg Ho H0 H1 H2 H3 H4
      isplitl [H5] <;> (iexists _; iassumption)
    · rw [PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_A c Set.univ (grid2.coords t) _ _ _ _ _ _ _ _ _ _ _ _ _ _ _ _ _ _ hc0 hc1 (iblk2 V c 0 t) (iblk2 V c 1 t) (iblk2 V c 2 t) (iblk2 V c 3 t) (iblk2 V c 4 t) _ _ _)
      iframe H0 H1 H2 H3 H4 H5 H6
      isplitl [HS0]; · iexists _; iexact HS0
      isplitl [HS1]; · iexists _; iexact HS1
      iintro ⟨H0, H1, H2, H3, H4, H5, H6, HS0, HS1⟩
      iframe HS0 HS1 HR Hg Ho H0 H1 H2 H3 H4
      isplitl [H5] <;> (iexists _; iassumption)
  · have hz : t.val ≠ 0 := fun e => h0 (by rw [e])
    have hc0 : ¬cond2_0 (grid2.coords t) := fun h => h0 ((hcond2_0 t).mp h)
    rw [acc2_next V c t h0, PhiS_pos V c _ _ hz]
    dsimp only [step2]
    by_cases h1 : t.val % 25 = 24
    · have hc1 : cond2_1 (grid2.coords t) := (hcond2_1 t).mpr h1
      rw [leaves_live V c 5 t (liveAt2_5 t hc1), after2_5]
      rw [leaves_live V c 6 t (liveAt2_6 t hc1), after2_6]
      rw [acc2_next V c t h0]
      dsimp only [step2]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_C c Set.univ (grid2.coords t) _ _ _ _ _ _ _ _ _ _ _ _ _ _ _ _ _ _ hc0 hc1 (iblk2 V c 0 t) (iblk2 V c 1 t) (iblk2 V c 2 t) (iblk2 V c 3 t) (iblk2 V c 4 t) _ _ _)
      iframe H0 H1 H2 H3 H4 HS0 HS1
      isplitl [H5]; · iexists _; iexact H5
      isplitl [H6]; · iexists _; iexact H6
      iintro ⟨H0, H1, H2, H3, H4, H5, H6, HS0, HS1⟩
      iframe HS0 HS1 HR Hg Ho H0 H1 H2 H3 H4 H5 H6
    · have hc1 : ¬cond2_1 (grid2.coords t) := fun h => h1 ((hcond2_1 t).mp h)
      rw [Dat.leavesExact_idle (dat2 V c) 5 t (idleAt2_5 t hc1) (noFlush2_5 t hc1),
        Dat.leavesExact_idle (dat2 V c) 6 t (idleAt2_6 t hc1) (noFlush2_6 t hc1)]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_B c Set.univ (grid2.coords t) _ _ _ _ _ _ _ _ _ _ _ _ _ _ _ _ _ _ hc0 hc1 (iblk2 V c 0 t) (iblk2 V c 1 t) (iblk2 V c 2 t) (iblk2 V c 3 t) (iblk2 V c 4 t) _ _ _ _ _)
      iframe H0 H1 H2 H3 H4 H5 H6 HS0 HS1
      iintro ⟨H0, H1, H2, H3, H4, H5, H6, HS0, HS1⟩
      iframe HS0 HS1 HR Hg Ho H0 H1 H2 H3 H4
      isplitl [H5] <;> (iexists _; iassumption)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl]
  refine (PhiS_any V c _ _).trans ?_
  rw [PhiA2_eq]; try exact Idealize.SL.BI.Entails.refl _

end Cert.Kernel.Hand

end
-- ==== Proof.BRun.lean ====
import proofs.«401631_j30562987278347_3_alg».proof.Proof.BReg0
import proofs.«401631_j30562987278347_3_alg».proof.Proof.BReg1
import proofs.«401631_j30562987278347_3_alg».proof.Proof.BReg2
import proofs.«401631_j30562987278347_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

-- Overriding a valuation on the arrays by values that agree with it at `b` changes nothing at `b`.
theorem keepArr {gr W : ℕ} {win : Fin W → Pipeline.WinSpec sig gr} (hinj : Function.Injective (Pipeline.arrRef win)) (c : Dev nD)
    (V : Valuation τ sig (Elt F)) (A : (w : Fin W) → Buf (Elt F) ((win w).arr.view.loc (c : Thread nD τ))) (b : Ref sig .tc)
    (h : ∀ w, Pipeline.arrRef win w = b → A w = V (Proc.devRef .tc (Pipeline.arrRef win w))) :
    Pipeline.withArrays win c V A (Proc.devRef .tc b) = V (Proc.devRef .tc b) := by
  by_cases hw : ∃ w, Pipeline.arrRef win w = b
  · obtain ⟨w, rfl⟩ := hw; exact (Pipeline.withArrays_arr win hinj c V A w).trans (h w rfl)
  · exact Pipeline.withArrays_of_ne win c V A b fun w e => hw ⟨w, e⟩

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_keep (c : Dev nD) (b : Ref sig .tc) (hb : ∀ w, Pipeline.arrRef spec0 w = b → (cfg0.win w).isOut = false) :
    W2 m ρ c (Proc.devRef .tc b) = W1 m ρ c (Proc.devRef .tc b) :=
  keepArr launch0.win.arr_inj c _ _ b fun w e => ((dat0 (V1 m ρ) c).arrAt_in w (hb w e) _).trans (A_eq0 (V1 m ρ) c w)
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_keep (c : Dev nD) (b : Ref sig .tc) (hb : ∀ w, Pipeline.arrRef spec1 w = b → (cfg1.win w).isOut = false) :
    W4 m ρ c (Proc.devRef .tc b) = W3 m ρ c (Proc.devRef .tc b) :=
  keepArr launch1.win.arr_inj c _ _ b fun w e => ((dat1 (V3 m ρ) c).arrAt_in w (hb w e) _).trans (A_eq1 (V3 m ρ) c w)
abbrev V4 : (c : Dev nD) → (b : Ref sig .tc) → Buf (Elt F) ((c : Thread nD τ).loc b) := fun c b => W4 m ρ c b

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_keep (c : Dev nD) (b : Ref sig .tc) (hb : ∀ w, Pipeline.arrRef spec2 w = b → (cfg2.win w).isOut = false) :
    W6 m ρ c (Proc.devRef .tc b) = W5 m ρ c (Proc.devRef .tc b) :=
  keepArr launch2.win.arr_inj c _ _ b fun w e => ((dat2 (V5 m ρ) c).arrAt_in w (hb w e) _).trans (A_eq2 (V5 m ρ) c w)
abbrev V6 : (c : Dev nD) → (b : Ref sig .tc) → Buf (Elt F) ((c : Thread nD τ).loc b) := fun c b => W6 m ρ c b

abbrev W7 : Dev nD → Valuation τ sig (Elt F) := fun c => StableHlo.after hostOps3 (W6 m ρ c)
abbrev W8 : Dev nD → Valuation τ sig (Elt F) := fun c => StableHlo.after hostOps3_1 (W7 m ρ c)
abbrev W9 : Dev nD → Valuation τ sig (Elt F) := fun c => StableHlo.after hostOps3_2 (W8 m ρ c)

def Wn : ℕ → Dev nD → Valuation τ sig (Elt F)
  | 0 => W0 m ρ | 1 => W1 m ρ | 2 => W2 m ρ | 3 => W3 m ρ | 4 => W4 m ρ | 5 => W5 m ρ | 6 => W6 m ρ | 7 => W7 m ρ | 8 => W8 m ρ | _ => W9 m ρ

abbrev Kn (b : Ref sig .tc) : ℕ → Prop
  | 0 => b ∉ hostOps0_W
  | 1 => ∀ w, Pipeline.arrRef spec0 w = b → (cfg0.win w).isOut = false
  | 2 => b ∉ hostOps1_W
  | 3 => ∀ w, Pipeline.arrRef spec1 w = b → (cfg1.win w).isOut = false
  | 4 => b ∉ hostOps2_W
  | 5 => ∀ w, Pipeline.arrRef spec2 w = b → (cfg2.win w).isOut = false
  | 6 => b ∉ hostOps3_W
  | 7 => b ∉ hostOps3_1_W
  | 8 => b ∉ hostOps3_2_W
  | _ => False

noncomputable instance (b : Ref sig .tc) : DecidablePred (Kn b) := fun k => by unfold Kn; split <;> infer_instance

-- Item `k` does not change a buffer it does not write.
theorem step (c : Dev nD) (b : Ref sig .tc) : ∀ k, Kn b k → Wn m ρ (k + 1) c (Proc.devRef .tc b) = Wn m ρ k c (Proc.devRef .tc b)
  | 0, h => StableHlo.after_of_writes_sub hostOps0 _ hostOps0_writes h
  | 1, h => W2_keep m ρ c b h
  | 2, h => StableHlo.after_of_writes_sub hostOps1 _ hostOps1_writes h
  | 3, h => W4_keep m ρ c b h
  | 4, h => StableHlo.after_of_writes_sub hostOps2 _ hostOps2_writes h
  | 5, h => W6_keep m ρ c b h
  | 6, h => StableHlo.after_of_writes_sub hostOps3 _ hostOps3_writes h
  | 7, h => StableHlo.after_of_writes_sub hostOps3_1 _ hostOps3_1_writes h
  | 8, h => StableHlo.after_of_writes_sub hostOps3_2 _ hostOps3_2_writes h
  | _ + 9, h => h.elim

theorem keep (c : Dev nD) (b : Ref sig .tc) (i j : ℕ) (h : ∀ k, k < j → i ≤ k → Kn b k) (hij : i ≤ j := by decide) :
    Wn m ρ j c (Proc.devRef .tc b) = Wn m ρ i c (Proc.devRef .tc b) := by
  induction j, hij using Nat.le_induction with
  | base => rfl
  | succ n hn ih => exact (step m ρ c b n (h n n.lt_succ_self hn)).trans (ih fun k hk => h k (hk.trans n.lt_succ_self))

abbrev args : List (Ref sig .tc) :=
  [main_arg0, main_arg1, main_arg2, main_arg3, main_arg4, main_arg5, main_arg6, main_arg7, main_arg8, main_arg9, main_arg10, main_arg11, main_arg12]

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

theorem hinA {gr W : ℕ} (win : Fin W → Pipeline.WinSpec sig gr) (c : Dev nD) (pf : sProp 𝕄) :
    iprop((∃ r, prngReg c r) ∗ pf ∗ Pipeline.scopedRest win c) ⊢ (Pipeline.ΦA win c : sProp 𝕄) := by
  unfold Pipeline.ΦA; iintro ⟨Hp, -, Hr⟩; iframe Hr Hp
theorem houtA {gr W : ℕ} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA; iintro ⟨Hr, Hp⟩; iframe Hp Hr; iempintro

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, %W, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    iexists W; isplitr; · ipureintro; exact fun _ _ => Or.inl trivial
    iexact HO
  hin c := hinA spec0 c _
  hout c := by rw [Pipeline.ownSems0_none]; exact houtA spec0 c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (fun w => (W2_arr m ρ c w).symm) (fun b hb => W2_keep m ρ c b fun w e => absurd (Finset.mem_image.mpr ⟨w, Finset.mem_univ _, e⟩) hb)
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, %W, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    iexists W; isplitr; · ipureintro; exact fun _ _ => Or.inl trivial
    iexact HO
  hin c := hinA spec1 c _
  hout c := by rw [Pipeline.ownSems0_none]; exact houtA spec1 c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (fun w => (W4_arr m ρ c w).symm) (fun b hb => W4_keep m ρ c b fun w e => absurd (Finset.mem_image.mpr ⟨w, Finset.mem_univ _, e⟩) hb)
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, %W, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    iexists W; isplitr; · ipureintro; exact fun _ _ => Or.inl trivial
    iexact HO
  hin c := (hinA spec2 c _).trans (hin2 (V5 m ρ) c)
  hout c := by rw [Pipeline.ownSems0_none]; exact (hout2 (V5 m ρ) c).trans (houtA spec2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (fun w => (W6_arr m ρ c w).symm) (fun b hb => W6_keep m ρ c b fun w e => absurd (Finset.mem_image.mpr ⟨w, Finset.mem_univ _, e⟩) hb)
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)),
    .host (hseg hostOps3_2 hostOps3_2_sub hostOps3_2_fresh (W8 m ρ)) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_chain c, Pipeline.Seg.run_eq_chain]; rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

-- No item writes an argument, so the fold gives each one back as launched.
theorem args_kept (c : Dev nD) (μ : (ℓ : Loc nD τ sig) → Buf (Elt F) ℓ)
    (h : ∀ b ∈ Pipeline.ucRefs τ sig, μ ((c : Thread nD τ).1, b) = W9 m ρ c b) :
    args.Forall fun b => μ ((c : Thread nD τ).loc b) = m ((c : Thread nD τ).loc b) :=
  List.forall_iff_forall_mem.mpr fun b hb =>
    have hd := (by decide : ∀ b ∈ args, ¬ (Proc.devRef .tc b : DevRef τ sig).isScoped ∧ ∀ k, k < 9 → 0 ≤ k → Kn b k) b hb
    (h _ (mem_uc b hd.1)).trans (keep m ρ c b 0 9 hd.2)

theorem frame : θ_run defs (onTc (τ := τ) (main (F := F))) ⟨m, fun _ => 0, ρ⟩ (fun r => ∀ c : Dev nD,
      args.Forall fun b => r.2.mem ((c.tc : Thread nD τ).loc b) = m ((c.tc : Thread nD τ).loc b)) :=
  (θ_run defs _ _).mono (fun r h c => args_kept m ρ c r.2.mem (h c)) (run_all m ρ)

end Cert.Kernel.Hand

end
-- ==== Proof.KReg0.lean ====
import proofs.«401631_j30562987278347_3_alg».proof.Proof.Gen.KernelIdeal.Launch
import proofs.«401631_j30562987278347_3_alg».proof.Proof.Gen.KernelIdeal.Skeleton
import proofs.«401631_j30562987278347_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S4000x96 := Rect.unit (s := S4000x96) ![0, 0] S4000x96.size inb_S4000x96_S4000x96_0_0
abbrev r0_1 : Rect S96x64 := Rect.unit (s := S96x64) ![0, 0] S96x64.size inb_S96x64_S96x64_0_0
abbrev r0_2 : Rect S4000x1 := Rect.unit (s := S4000x1) ![0, 0] S4000x1.size inb_S4000x1_S4000x1_0_0
abbrev r0_3 : Rect S4000x64 := Rect.unit (s := S4000x64) ![0, 0] S4000x64.size inb_S4000x64_S4000x64_0_0

def out0_3 (x0 : Vec F S4000x96 .f32) (x1 : Vec F S96x64 .f32) (x2 : Vec F S4000x1 .f32) : Vec F S4000x64 .f32 :=
  View.canon [⟨r0_3, k0_pay1 (View.ld x0 r0_0) (View.ld x1 r0_1) (View.ld x2 r0_2)⟩]

theorem sound_kernel0 (c : Dev nD) (E : Set ℕ) (i : grid0.Coords)
    (arg1 : Memref sig .tc .vmem S4000x96 .f32) (harg1 : arg1.IsWhole) (arg2 : Memref sig .tc .vmem S96x64 .f32) (harg2 : arg2.IsWhole)
    (arg3 : Memref sig .tc .vmem S4000x1 .f32) (harg3 : arg3.IsWhole) (arg4 : Memref sig .tc .vmem S4000x64 .f32) (harg4 : arg4.IsWhole)
    (x0 : Vec F S4000x96 .f32) (x1 : Vec F S96x64 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_scaled_kernel i arg1 harg1 arg2 harg2 arg3 harg3 arg4 harg4) K := by
  simp only [cc0__matmul_scaled_kernel_eq_skeleton]; unfold cc0__matmul_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (Dat.before_in_eq_fetched _ 0 rfl (fun _ => rfl) (fun _ _ _ => rfl) (fun _ => by dsimp only [dat0]; rfl) t d).trans rfl
theorem before0_1 (c : Dev nD) (t : Fin cfg0.N) (d) : (dat0 V c).before 1 t d = iblk0 V c 1 t :=
  (Dat.before_in_eq_fetched _ 1 rfl (fun _ => rfl) (fun _ _ _ => rfl) (fun _ => by dsimp only [dat0]; rfl) t d).trans rfl
theorem before0_2 (c : Dev nD) (t : Fin cfg0.N) (d) : (dat0 V c).before 2 t d = iblk0 V c 2 t :=
  (Dat.before_in_eq_fetched _ 2 rfl (fun _ => rfl) (fun _ _ _ => rfl) (fun _ => by dsimp only [dat0]; rfl) t d).trans rfl

theorem body_obligation0 (c : Dev nD) : BodyObligation (dat0 (F := F) V c) (defs₀ (F := F)) Variants.none () Set.univ := fun t => by
  rw [bigSep_W0, bigSep_W0]
  simp only [before0_0, before0_1, before0_2]
  dsimp only [dat0, Dat.owesAt, Dat.bound]
  change _ ⊢ wp _ _ _ (bodyAt0 t) _
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  iframe H0 H1 H2
  isplitl [H3]; · iexists _; iexact H3
  iintro ⟨H0, H1, H2, H3⟩
  iframe

end Cert.KernelIdeal.Hand

end
-- ==== Proof.KReg1.lean ====
import proofs.«401631_j30562987278347_3_alg».proof.Proof.Gen.KernelIdeal.Launch
import proofs.«401631_j30562987278347_3_alg».proof.Proof.Gen.KernelIdeal.Skeleton
import proofs.«401631_j30562987278347_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4000x1 := Rect.unit (s := S4000x1) ![0, 0] S4000x1.size inb_S4000x1_S4000x1_0_0
abbrev r1_1 : Rect S4000x64 := Rect.unit (s := S4000x64) ![0, 0] S4000x64.size inb_S4000x64_S4000x64_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0

def out1_5 (x0 : Vec F S4000x64 .f32) (x1 : Vec F S4000x64 .f32) (x2 : Vec F S4000x1 .f32) (x3 : Vec F S1x64 .f32) (x4 : Vec F S64x64 .f32) :
    Vec F S4000x64 .f32 :=
  View.canon [⟨r1_1, k1_pay1 (View.ld x2 r1_0) (View.ld x0 r1_1) (View.ld x1 r1_1) (View.ld x3 r1_2) (View.ld x4 r1_3)⟩]

theorem sound_kernel1 (c : Dev nD) (E : Set ℕ) (i : grid1.Coords)
    (arg0 : Memref sig .tc .vmem S4000x64 .f32) (harg0 : arg0.IsWhole) (arg1 : Memref sig .tc .vmem S4000x64 .f32) (harg1 : arg1.IsWhole)
    (arg2 : Memref sig .tc .vmem S4000x1 .f32) (harg2 : arg2.IsWhole) (arg3 : Memref sig .tc .vmem S1x64 .f32) (harg3 : arg3.IsWhole)
    (arg4 : Memref sig .tc .vmem S64x64 .f32) (harg4 : arg4.IsWhole) (arg5 : Memref sig .tc .vmem S4000x64 .f32) (harg5 : arg5.IsWhole)
    (x0 : Vec F S4000x64 .f32) (x1 : Vec F S4000x64 .f32) (x2 : Vec F S4000x1 .f32) (x3 : Vec F S1x64 .f32) (x4 : Vec F S64x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E
          (cc1__fused_combine_matmul_kernel i arg0 harg0 arg1 harg1 arg2 harg2 arg3 harg3 arg4 harg4 arg5 harg5) K := by
  simp only [cc1__fused_combine_matmul_kernel_eq_skeleton]; unfold cc1__fused_combine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S4000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  (Dat.before_in_eq_fetched _ 0 rfl (fun _ => rfl) (fun _ _ _ => rfl) (fun _ => by dsimp only [dat1]; rfl) t d).trans rfl
theorem before1_1 (c : Dev nD) (t : Fin cfg1.N) (d) : (dat1 V c).before 1 t d = iblk1 V c 1 t :=
  (Dat.before_in_eq_fetched _ 1 rfl (fun _ => rfl) (fun _ _ _ => rfl) (fun _ => by dsimp only [dat1]; rfl) t d).trans rfl
theorem before1_2 (c : Dev nD) (t : Fin cfg1.N) (d) : (dat1 V c).before 2 t d = iblk1 V c 2 t :=
  (Dat.before_in_eq_fetched _ 2 rfl (fun _ => rfl) (fun _ _ _ => rfl) (fun _ => by dsimp only [dat1]; rfl) t d).trans rfl
theorem before1_3 (c : Dev nD) (t : Fin cfg1.N) (d) : (dat1 V c).before 3 t d = iblk1 V c 3 t :=
  (Dat.before_in_eq_fetched _ 3 rfl (fun _ => rfl) (fun _ _ _ => rfl) (fun _ => by dsimp only [dat1]; rfl) t d).trans rfl
theorem before1_4 (c : Dev nD) (t : Fin cfg1.N) (d) : (dat1 V c).before 4 t d = iblk1 V c 4 t :=
  (Dat.before_in_eq_fetched _ 4 rfl (fun _ => rfl) (fun _ _ _ => rfl) (fun _ => by dsimp only [dat1]; rfl) t d).trans rfl

theorem body_obligation1 (c : Dev nD) : BodyObligation (dat1 (F := F) V c) (defs₀ (F := F)) Variants.none () Set.univ := fun t => by
  rw [bigSep_W1, bigSep_W1]
  simp only [before1_0, before1_1, before1_2, before1_3, before1_4]
  dsimp only [dat1, Dat.owesAt, Dat.bound]
  change _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe

end Cert.KernelIdeal.Hand

end
-- ==== Proof.KReg2.lean ====
import proofs.«401631_j30562987278347_3_alg».proof.Proof.Gen.KernelIdeal.Launch
import proofs.«401631_j30562987278347_3_alg».proof.Proof.Gen.KernelIdeal.Skeleton
import proofs.«401631_j30562987278347_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 25 = 0 :=
  (by decide +kernel : ∀ t : Fin grid2.N, cond2_0 (grid2.coords t) ↔ t.val % 25 = 0)

abbrev cond2_1 (i : grid2.Coords) : Prop := k2_cond2 i = 1#1
theorem hcond2_1 : ∀ t : Fin cfg2.N, cond2_1 (grid2.coords t) ↔ t.val % 25 = 24 :=
  (by decide +kernel : ∀ t : Fin grid2.N, cond2_1 (grid2.coords t) ↔ t.val % 25 = 24)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_1 (grid2.coords t) → cfg2.idle 5 (grid2.coords t) = true := by decide +kernel
theorem idleAt2_6 : ∀ t : Fin cfg2.N, ¬cond2_1 (grid2.coords t) → cfg2.idle 6 (grid2.coords t) = true := by decide +kernel
theorem noFlush2_5 : ∀ t : Fin cfg2.N, ¬cond2_1 (grid2.coords t) → (cfg2.win 5).flush t = false := by decide +kernel
theorem noFlush2_6 : ∀ t : Fin cfg2.N, ¬cond2_1 (grid2.coords t) → (cfg2.win 6).flush t = false := by decide +kernel
theorem liveAt2_5 : ∀ t : Fin cfg2.N, cond2_1 (grid2.coords t) → cfg2.idle 5 (grid2.coords t) = false := by decide +kernel
theorem liveAt2_6 : ∀ t : Fin cfg2.N, cond2_1 (grid2.coords t) → cfg2.idle 6 (grid2.coords t) = false := by decide +kernel

def step2 (c : Dev nD) (t : Fin cfg2.N) (p : Vec F S128x64 .f32 × Vec F S1x128 .f32) : Vec F S128x64 .f32 × Vec F S1x128 .f32 :=
  (k2_pay7 (iblk2 V c 2 t) (iblk2 V c 0 t) (iblk2 V c 1 t) (iblk2 V c 3 t) (iblk2 V c 4 t) p.1,
   k2_pay1 p.2 (k2_pay8 (iblk2 V c 4 t)))

def acc2 (c : Dev nD) : (n : ℕ) → n < cfg2.N → Vec F S128x64 .f32 × Vec F S1x128 .f32
  | 0, hn => step2 V c ⟨0, hn⟩ (k2_pay4, k2_pay5)
  | n + 1, hn =>
    if (n + 1) % 25 = 0 then step2 V c ⟨n + 1, hn⟩ (k2_pay4, k2_pay5)
    else step2 V c ⟨n + 1, hn⟩ (acc2 c n (Nat.lt_of_succ_lt hn))

theorem acc2_first (c : Dev nD) (t : Fin cfg2.N) (h0 : t.val % 25 = 0) :
    acc2 V c t.val t.isLt = step2 V c t (k2_pay4, k2_pay5) := by
  obtain ⟨n, hn⟩ := t
  cases n with
  | zero => rfl
  | succ n => exact if_pos h0

theorem acc2_next (c : Dev nD) (t : Fin cfg2.N) (h0 : ¬t.val % 25 = 0) :
    acc2 V c t.val t.isLt = step2 V c t (acc2 V c (t.val - 1) (Nat.lt_of_le_of_lt (Nat.sub_le _ _) t.isLt)) := by
  obtain ⟨n, hn⟩ := t
  cases n with
  | zero => exact absurd (Nat.zero_mod _) h0
  | succ n => exact if_neg h0

abbrev scM2_0 : Memref sig .tc .vmem S128x64 .f32 := Memref.whole cc2_scratch0
abbrev scM2_1 : Memref sig .tc .vmem S1x128 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA
  rw [Pipeline.scopedRest_split_of_list spec2 c [cc2_scratch0, cc2_scratch1] (by decide) (by decide)]
  simp only [scM2_0, scM2_1, owns_whole]
  rfl

def PhiS (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2) ∗ rest2 c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM2_0 fullShare (acc2 V c n hn).1 ∗ owns (c : Thread nD τ) scM2_1 fullShare (acc2 V c n hn).2) ∗ rest2 c) ∗ (∃ r, prngReg c r)) := rfl

theorem PhiS_pos (c : Dev nD) (n : ℕ) (h : n ≤ cfg2.N) (hz : n ≠ 0) :
    PhiS V c n h = iprop(iprop(iprop(owns (c : Thread nD τ) scM2_0 fullShare (acc2 V c (n - 1) (by omega)).1 ∗ owns (c : Thread nD τ) scM2_1 fullShare (acc2 V c (n - 1) (by omega)).2) ∗ rest2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay2 (acc2 V c t.val t.isLt).1
    | ⟨6, _⟩ => k2_pay3 (acc2 V c t.val t.isLt).2
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay2 (acc2 V c t.val t.isLt).1 := by dsimp only [dat2]
theorem after2_6 (c : Dev nD) (t : Fin cfg2.N) : (dat2 V c).after 6 t = k2_pay3 (acc2 V c t.val t.isLt).2 := by dsimp only [dat2]

theorem before2_0 (c : Dev nD) (t : Fin cfg2.N) (d) : (dat2 V c).before 0 t d = iblk2 V c 0 t :=
  (Dat.before_in_eq_fetched _ 0 rfl (fun _ => rfl) (fun _ _ _ => rfl) (fun _ => by dsimp only [dat2]; rfl) t d).trans rfl
theorem before2_1 (c : Dev nD) (t : Fin cfg2.N) (d) : (dat2 V c).before 1 t d = iblk2 V c 1 t :=
  (Dat.before_in_eq_fetched _ 1 rfl (fun _ => rfl) (fun _ _ _ => rfl) (fun _ => by dsimp only [dat2]; rfl) t d).trans rfl
theorem before2_2 (c : Dev nD) (t : Fin cfg2.N) (d) : (dat2 V c).before 2 t d = iblk2 V c 2 t :=
  (Dat.before_in_eq_fetched _ 2 rfl (fun _ => rfl) (fun _ _ _ => rfl) (fun _ => by dsimp only [dat2]; rfl) t d).trans rfl
theorem before2_3 (c : Dev nD) (t : Fin cfg2.N) (d) : (dat2 V c).before 3 t d = iblk2 V c 3 t :=
  (Dat.before_in_eq_fetched _ 3 rfl (fun _ => rfl) (fun _ _ _ => rfl) (fun _ => by dsimp only [dat2]; rfl) t d).trans rfl
theorem before2_4 (c : Dev nD) (t : Fin cfg2.N) (d) : (dat2 V c).before 4 t d = iblk2 V c 4 t :=
  (Dat.before_in_eq_fetched _ 4 rfl (fun _ => rfl) (fun _ _ _ => rfl) (fun _ => by dsimp only [dat2]; rfl) t d).trans rfl

theorem leaves_live (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

theorem rdI {α β : Type} (P : α → sProp 𝕄) (r : α → β) (a : α) : P a ⊢ iprop(∃ f, ⌜r f = r a⌝ ∗ P f) := by
  iintro H; iexists a; isplitr; · ipureintro; rfl
  iexact H

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (E : Set ℕ) (i : grid2.Coords) (arg2 : Memref sig .tc .vmem S2000x64 .f32) (harg2 : arg2.IsWhole) (arg3 : Memref sig .tc .vmem S2000x64 .f32) (harg3 : arg3.IsWhole) (arg4 : Memref sig .tc .vmem S2000x1 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S1x128x64 .f32) (harg7 : arg7.IsWhole) (arg8 : Memref sig .tc .vmem S1x1x128 .f32) (harg8 : arg8.IsWhole) (arg9 : Memref sig .tc .vmem S128x64 .f32) (harg9 : arg9.IsWhole) (arg10 : Memref sig .tc .vmem S1x128 .f32) (harg10 : arg10.IsWhole)

set_option maxHeartbeats 1000000 in
theorem sound_kernel2_A
    (hc0 : cond2_0 i) (hc1 : ¬cond2_1 i) (x0 : Vec F S2000x64 .f32) (x1 : Vec F S2000x64 .f32) (x2 : Vec F S2000x1 .f32) (x3 : Vec F S1x64 .f32) (x4 : Vec F S2000x1 .i32) (y5 : Vec F S1x128x64 .f32) (y6 : Vec F S1x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6
            ∗ owns (c : Thread nD τ) arg9 fullShare (k2_pay7 x2 x0 x1 x3 x4 k2_pay4) ∗ owns (c : Thread nD τ) arg10 fullShare (k2_pay1 k2_pay5 (k2_pay8 x4))) -∗ K ⟨⟩))
      ⊢ wp frame (wpE (defs₀ (F := F)) Variants.none c none) E (cc2__pool_fused_kernel i arg2 harg2 arg3 harg3 arg4 harg4 arg5 harg5 arg6 harg6 arg7 harg7 arg8 harg8 arg9 harg9 arg10 harg10) K := by
  simp only [cc2__pool_fused_kernel_eq_skeleton]; unfold cc2__pool_fused_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
  subst hf0; subst hf1; subst hf2; subst hf3; subst hf4; subst hf5; subst hf6
  sl_exec (disch := first | exact hc0 | exact hc1)
  sl_step
  iapply Hk
  isplitl [H0]; · iapply (rdI _ _ f0); iexact H0
  isplitl [H1]; · iapply (rdI _ _ f1); iexact H1
  isplitl [H2]; · iapply (rdI _ _ f2); iexact H2
  isplitl [H3]; · iapply (rdI _ _ f3); iexact H3
  isplitl [H4]; · iapply (rdI _ _ f4); iexact H4
  isplitl [H5]; · iapply (rdI _ _ f5); iexact H5
  isplitl [H6]; · iapply (rdI _ _ f6); iexact H6
  isplitl [HS0]
  · iexists _; isplitr
    swap; · iexact HS0
    ipureintro
    sl_unfold_words
    rw [View.read_writes_eq_canon _ _ _ (fun y => ⟨_, List.Mem.head _, View.mem_set_unit_zero hz2 inb_S128x64_S128x64_0_0 y⟩), View.canon_cons_unit_zero (S := S128x64) hz2,
      View.readCov_unit_zero (S := S128x64) _ hz2]
    simp only [View.readAt_eq_ld, View.ld_unit_zero (S := S2000x1) hz2, View.ld_unit_zero (S := S2000x64) hz2, View.ld_unit_zero (S := S1x64) hz2, View.ld_unit_zero (S := S128x64) hz2, View.ld_unit_zero (S := S1x128) hz2]
  iexists _; isplitr
  swap; · iexact HS1
  ipureintro
  sl_unfold_words
  rw [View.read_writes_eq_canon _ _ _ (fun y => ⟨_, List.Mem.head _, View.mem_set_unit_zero hz2 inb_S1x128_S1x128_0_0 y⟩), View.canon_cons_unit_zero (S := S1x128) hz2,
    View.readCov_unit_zero (S := S1x128) _ hz2]
  simp only [View.readAt_eq_ld, View.ld_unit_zero (S := S2000x1) hz2, View.ld_unit_zero (S := S2000x64) hz2, View.ld_unit_zero (S := S1x64) hz2, View.ld_unit_zero (S := S128x64) hz2, View.ld_unit_zero (S := S1x128) hz2]

set_option maxHeartbeats 1000000 in
theorem sound_kernel2_B
    (hc0 : ¬cond2_0 i) (hc1 : ¬cond2_1 i) (x0 : Vec F S2000x64 .f32) (x1 : Vec F S2000x64 .f32) (x2 : Vec F S2000x1 .f32) (x3 : Vec F S1x64 .f32) (x4 : Vec F S2000x1 .i32) (y5 : Vec F S1x128x64 .f32) (y6 : Vec F S1x1x128 .f32)
    (s0 : Vec F S128x64 .f32) (s1 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6
            ∗ owns (c : Thread nD τ) arg9 fullShare (k2_pay7 x2 x0 x1 x3 x4 s0) ∗ owns (c : Thread nD τ) arg10 fullShare (k2_pay1 s1 (k2_pay8 x4))) -∗ K ⟨⟩))
      ⊢ wp frame (wpE (defs₀ (F := F)) Variants.none c none) E (cc2__pool_fused_kernel i arg2 harg2 arg3 harg3 arg4 harg4 arg5 harg5 arg6 harg6 arg7 harg7 arg8 harg8 arg9 harg9 arg10 harg10) K := by
  simp only [cc2__pool_fused_kernel_eq_skeleton]; unfold cc2__pool_fused_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  subst hf0; subst hf1; subst hf2; subst hf3; subst hf4; subst hf5; subst hf6; subst hfs0; subst hfs1
  sl_exec (disch := first | exact hc0 | exact hc1)
  sl_step
  iapply Hk
  isplitl [H0]; · iapply (rdI _ _ f0); iexact H0
  isplitl [H1]; · iapply (rdI _ _ f1); iexact H1
  isplitl [H2]; · iapply (rdI _ _ f2); iexact H2
  isplitl [H3]; · iapply (rdI _ _ f3); iexact H3
  isplitl [H4]; · iapply (rdI _ _ f4); iexact H4
  isplitl [H5]; · iapply (rdI _ _ f5); iexact H5
  isplitl [H6]; · iapply (rdI _ _ f6); iexact H6
  isplitl [HS0]
  · iexists _; isplitr
    swap; · iexact HS0
    ipureintro
    rw [View.read_writes_eq_canon _ _ _ (fun y => ⟨_, List.Mem.head _, View.mem_set_unit_zero hz2 inb_S128x64_S128x64_0_0 y⟩), View.canon_unit_zero hz2]
    simp only [View.readAt_eq_ld, View.ld_unit_zero (S := S2000x1) hz2, View.ld_unit_zero (S := S2000x64) hz2, View.ld_unit_zero (S := S1x64) hz2, View.ld_unit_zero (S := S128x64) hz2, View.ld_unit_zero (S := S1x128) hz2]
  iexists _; isplitr
  swap; · iexact HS1
  ipureintro
  sl_unfold_words
  rw [View.read_writes_eq_canon _ _ _ (fun y => ⟨_, List.Mem.head _, View.mem_set_unit_zero hz2 inb_S1x128_S1x128_0_0 y⟩), View.canon_unit_zero (S := S1x128) hz2]
  simp only [View.readAt_eq_ld, View.ld_unit_zero (S := S2000x1) hz2, View.ld_unit_zero (S := S2000x64) hz2, View.ld_unit_zero (S := S1x64) hz2, View.ld_unit_zero (S := S128x64) hz2, View.ld_unit_zero (S := S1x128) hz2]

set_option maxHeartbeats 1000000 in
theorem sound_kernel2_C
    (hc0 : ¬cond2_0 i) (hc1 : cond2_1 i) (x0 : Vec F S2000x64 .f32) (x1 : Vec F S2000x64 .f32) (x2 : Vec F S2000x1 .f32) (x3 : Vec F S1x64 .f32) (x4 : Vec F S2000x1 .i32)
    (s0 : Vec F S128x64 .f32) (s1 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k2_pay2 (k2_pay7 x2 x0 x1 x3 x4 s0)) ∗ owns (c : Thread nD τ) arg8 fullShare (k2_pay3 (k2_pay1 s1 (k2_pay8 x4)))
            ∗ owns (c : Thread nD τ) arg9 fullShare (k2_pay7 x2 x0 x1 x3 x4 s0) ∗ owns (c : Thread nD τ) arg10 fullShare (k2_pay1 s1 (k2_pay8 x4))) -∗ K ⟨⟩))
      ⊢ wp frame (wpE (defs₀ (F := F)) Variants.none c none) E (cc2__pool_fused_kernel i arg2 harg2 arg3 harg3 arg4 harg4 arg5 harg5 arg6 harg6 arg7 harg7 arg8 harg8 arg9 harg9 arg10 harg10) K := by
  simp only [cc2__pool_fused_kernel_eq_skeleton]; unfold cc2__pool_fused_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  subst hf0; subst hf1; subst hf2; subst hf3; subst hf4; subst hfs0; subst hfs1
  sl_exec (disch := first | exact hc0 | exact hc1)
  sl_step
  iapply Hk
  isplitl [H0]; · iapply (rdI _ _ f0); iexact H0
  isplitl [H1]; · iapply (rdI _ _ f1); iexact H1
  isplitl [H2]; · iapply (rdI _ _ f2); iexact H2
  isplitl [H3]; · iapply (rdI _ _ f3); iexact H3
  isplitl [H4]; · iapply (rdI _ _ f4); iexact H4
  isplitl [H5]
  · iexists _; isplitr
    swap; · iexact H5
    ipureintro
    sl_unfold_words
    rw [View.read_writes_eq_canon _ _ _ (fun y => ⟨_, List.Mem.head _, View.mem_set_unit_zero hz3 inb_S1x128x64_S1x128x64_0_0_0 y⟩), View.canon_unit_zero (S := S1x128x64) hz3,
      View.readCov_unit_zero (S := S128x64) _ hz2]
    simp only [View.readAt_eq_ld, View.ld_unit_zero (S := S2000x1) hz2, View.ld_unit_zero (S := S2000x64) hz2, View.ld_unit_zero (S := S1x64) hz2, View.ld_unit_zero (S := S128x64) hz2, View.ld_unit_zero (S := S1x128) hz2]
  isplitl [H6]
  · iexists _; isplitr
    swap; · iexact H6
    ipureintro
    sl_unfold_words
    rw [View.read_writes_eq_canon _ _ _ (fun y => ⟨_, List.Mem.head _, View.mem_set_unit_zero hz3 inb_S1x1x128_S1x1x128_0_0_0 y⟩), View.canon_unit_zero (S := S1x1x128) hz3,
      View.readCov_unit_zero (S := S1x128) _ hz2]
    simp only [View.readAt_eq_ld, View.ld_unit_zero (S := S2000x1) hz2, View.ld_unit_zero (S := S2000x64) hz2, View.ld_unit_zero (S := S1x64) hz2, View.ld_unit_zero (S := S128x64) hz2, View.ld_unit_zero (S := S1x128) hz2]
  isplitl [HS0]
  · iexists _; isplitr
    swap; · iexact HS0
    ipureintro
    sl_unfold_words
    rw [View.read_writes_eq_canon _ _ _ (fun y => ⟨_, List.Mem.head _, View.mem_set_unit_zero hz2 inb_S128x64_S128x64_0_0 y⟩), View.canon_unit_zero hz2]
    simp only [View.readAt_eq_ld, View.ld_unit_zero (S := S2000x1) hz2, View.ld_unit_zero (S := S2000x64) hz2, View.ld_unit_zero (S := S1x64) hz2, View.ld_unit_zero (S := S128x64) hz2, View.ld_unit_zero (S := S1x128) hz2]
  iexists _; isplitr
  swap; · iexact HS1
  ipureintro
  sl_unfold_words
  rw [View.read_writes_eq_canon _ _ _ (fun y => ⟨_, List.Mem.head _, View.mem_set_unit_zero hz2 inb_S1x128_S1x128_0_0 y⟩), View.canon_unit_zero (S := S1x128) hz2]
  simp only [View.readAt_eq_ld, View.ld_unit_zero (S := S2000x1) hz2, View.ld_unit_zero (S := S2000x64) hz2, View.ld_unit_zero (S := S1x64) hz2, View.ld_unit_zero (S := S128x64) hz2, View.ld_unit_zero (S := S1x128) hz2]

end

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

theorem PhiS_any (c : Dev nD) (n : ℕ) (h : n ≤ cfg2.N) :
    PhiS V c n h ⊢ iprop(iprop(iprop((∃ d, owns (c : Thread nD τ) scM2_0 fullShare d) ∗ (∃ d, owns (c : Thread nD τ) scM2_1 fullShare d)) ∗ rest2 c) ∗ (∃ r, prngReg c r)) := by
  cases n with
  | zero => rw [PhiS_zero V c 0 h rfl, PhiA2_eq]; try exact Idealize.SL.BI.Entails.refl _
  | succ n =>
    rw [PhiS_succ]
    iintro ⟨⟨⟨HS0, HS1⟩, HR⟩, Hg⟩
    iframe HR Hg
    isplitl [HS0] <;> (iexists _; iassumption)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS V c (t.val + 1) t.isLt from rfl, PhiS_succ]
  rw [leaves_live V c 0 t (liveAt2_0 t), after2_0]
  rw [leaves_live V c 1 t (liveAt2_1 t), after2_1]
  rw [leaves_live V c 2 t (liveAt2_2 t), after2_2]
  rw [leaves_live V c 3 t (liveAt2_3 t), after2_3]
  rw [leaves_live V c 4 t (liveAt2_4 t), after2_4]
  rw [PhiS_castSucc]
  have hN : t.val < 50 := lt_of_lt_of_eq t.isLt (show cfg2.N = 50 from N_2)
  by_cases h0 : t.val % 25 = 0
  · have h1 : ¬t.val % 25 = 24 := by omega
    have hc0 : cond2_0 (grid2.coords t) := (hcond2_0 t).mpr h0
    have hc1 : ¬cond2_1 (grid2.coords t) := fun h => h1 ((hcond2_1 t).mp h)
    rw [Dat.leavesExact_idle (dat2 V c) 5 t (idleAt2_5 t hc1) (noFlush2_5 t hc1),
      Dat.leavesExact_idle (dat2 V c) 6 t (idleAt2_6 t hc1) (noFlush2_6 t hc1)]
    rw [acc2_first V c t h0]
    dsimp only [step2]
    by_cases hz : t.val = 0
    · rw [PhiS_zero V c _ _ hz, PhiA2_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_A c Set.univ (grid2.coords t) _ _ _ _ _ _ _ _ _ _ _ _ _ _ _ _ _ _ hc0 hc1 (iblk2 V c 0 t) (iblk2 V c 1 t) (iblk2 V c 2 t) (iblk2 V c 3 t) (iblk2 V c 4 t) _ _ _)
      iframe H0 H1 H2 H3 H4 H5 H6 HS0 HS1
      iintro ⟨H0, H1, H2, H3, H4, H5, H6, HS0, HS1⟩
      iframe HS0 HS1 HR Hg Ho H0 H1 H2 H3 H4
      isplitl [H5] <;> (iexists _; iassumption)
    · rw [PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_A c Set.univ (grid2.coords t) _ _ _ _ _ _ _ _ _ _ _ _ _ _ _ _ _ _ hc0 hc1 (iblk2 V c 0 t) (iblk2 V c 1 t) (iblk2 V c 2 t) (iblk2 V c 3 t) (iblk2 V c 4 t) _ _ _)
      iframe H0 H1 H2 H3 H4 H5 H6
      isplitl [HS0]; · iexists _; iexact HS0
      isplitl [HS1]; · iexists _; iexact HS1
      iintro ⟨H0, H1, H2, H3, H4, H5, H6, HS0, HS1⟩
      iframe HS0 HS1 HR Hg Ho H0 H1 H2 H3 H4
      isplitl [H5] <;> (iexists _; iassumption)
  · have hz : t.val ≠ 0 := fun e => h0 (by rw [e])
    have hc0 : ¬cond2_0 (grid2.coords t) := fun h => h0 ((hcond2_0 t).mp h)
    rw [acc2_next V c t h0, PhiS_pos V c _ _ hz]
    dsimp only [step2]
    by_cases h1 : t.val % 25 = 24
    · have hc1 : cond2_1 (grid2.coords t) := (hcond2_1 t).mpr h1
      rw [leaves_live V c 5 t (liveAt2_5 t hc1), after2_5]
      rw [leaves_live V c 6 t (liveAt2_6 t hc1), after2_6]
      rw [acc2_next V c t h0]
      dsimp only [step2]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_C c Set.univ (grid2.coords t) _ _ _ _ _ _ _ _ _ _ _ _ _ _ _ _ _ _ hc0 hc1 (iblk2 V c 0 t) (iblk2 V c 1 t) (iblk2 V c 2 t) (iblk2 V c 3 t) (iblk2 V c 4 t) _ _ _)
      iframe H0 H1 H2 H3 H4 HS0 HS1
      isplitl [H5]; · iexists _; iexact H5
      isplitl [H6]; · iexists _; iexact H6
      iintro ⟨H0, H1, H2, H3, H4, H5, H6, HS0, HS1⟩
      iframe HS0 HS1 HR Hg Ho H0 H1 H2 H3 H4 H5 H6
    · have hc1 : ¬cond2_1 (grid2.coords t) := fun h => h1 ((hcond2_1 t).mp h)
      rw [Dat.leavesExact_idle (dat2 V c) 5 t (idleAt2_5 t hc1) (noFlush2_5 t hc1),
        Dat.leavesExact_idle (dat2 V c) 6 t (idleAt2_6 t hc1) (noFlush2_6 t hc1)]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_B c Set.univ (grid2.coords t) _ _ _ _ _ _ _ _ _ _ _ _ _ _ _ _ _ _ hc0 hc1 (iblk2 V c 0 t) (iblk2 V c 1 t) (iblk2 V c 2 t) (iblk2 V c 3 t) (iblk2 V c 4 t) _ _ _ _ _)
      iframe H0 H1 H2 H3 H4 H5 H6 HS0 HS1
      iintro ⟨H0, H1, H2, H3, H4, H5, H6, HS0, HS1⟩
      iframe HS0 HS1 HR Hg Ho H0 H1 H2 H3 H4
      isplitl [H5] <;> (iexists _; iassumption)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl]
  refine (PhiS_any V c _ _).trans ?_
  rw [PhiA2_eq]; try exact Idealize.SL.BI.Entails.refl _

end Cert.KernelIdeal.Hand

end
-- ==== Proof.KRun.lean ====
import proofs.«401631_j30562987278347_3_alg».proof.Proof.KReg0
import proofs.«401631_j30562987278347_3_alg».proof.Proof.KReg1
import proofs.«401631_j30562987278347_3_alg».proof.Proof.KReg2
import proofs.«401631_j30562987278347_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

-- Overriding a valuation on the arrays by values that agree with it at `b` changes nothing at `b`.
theorem keepArr {gr W : ℕ} {win : Fin W → Pipeline.WinSpec sig gr} (hinj : Function.Injective (Pipeline.arrRef win)) (c : Dev nD)
    (V : Valuation τ sig (Elt F)) (A : (w : Fin W) → Buf (Elt F) ((win w).arr.view.loc (c : Thread nD τ))) (b : Ref sig .tc)
    (h : ∀ w, Pipeline.arrRef win w = b → A w = V (Proc.devRef .tc (Pipeline.arrRef win w))) :
    Pipeline.withArrays win c V A (Proc.devRef .tc b) = V (Proc.devRef .tc b) := by
  by_cases hw : ∃ w, Pipeline.arrRef win w = b
  · obtain ⟨w, rfl⟩ := hw; exact (Pipeline.withArrays_arr win hinj c V A w).trans (h w rfl)
  · exact Pipeline.withArrays_of_ne win c V A b fun w e => hw ⟨w, e⟩

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_keep (c : Dev nD) (b : Ref sig .tc) (hb : ∀ w, Pipeline.arrRef spec0 w = b → (cfg0.win w).isOut = false) :
    W2 m ρ c (Proc.devRef .tc b) = W1 m ρ c (Proc.devRef .tc b) :=
  keepArr launch0.win.arr_inj c _ _ b fun w e => ((dat0 (V1 m ρ) c).arrAt_in w (hb w e) _).trans (A_eq0 (V1 m ρ) c w)
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_keep (c : Dev nD) (b : Ref sig .tc) (hb : ∀ w, Pipeline.arrRef spec1 w = b → (cfg1.win w).isOut = false) :
    W4 m ρ c (Proc.devRef .tc b) = W3 m ρ c (Proc.devRef .tc b) :=
  keepArr launch1.win.arr_inj c _ _ b fun w e => ((dat1 (V3 m ρ) c).arrAt_in w (hb w e) _).trans (A_eq1 (V3 m ρ) c w)
abbrev V4 : (c : Dev nD) → (b : Ref sig .tc) → Buf (Elt F) ((c : Thread nD τ).loc b) := fun c b => W4 m ρ c b

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_keep (c : Dev nD) (b : Ref sig .tc) (hb : ∀ w, Pipeline.arrRef spec2 w = b → (cfg2.win w).isOut = false) :
    W6 m ρ c (Proc.devRef .tc b) = W5 m ρ c (Proc.devRef .tc b) :=
  keepArr launch2.win.arr_inj c _ _ b fun w e => ((dat2 (V5 m ρ) c).arrAt_in w (hb w e) _).trans (A_eq2 (V5 m ρ) c w)
abbrev V6 : (c : Dev nD) → (b : Ref sig .tc) → Buf (Elt F) ((c : Thread nD τ).loc b) := fun c b => W6 m ρ c b

abbrev W7 : Dev nD → Valuation τ sig (Elt F) := fun c => StableHlo.after hostOps3 (W6 m ρ c)
abbrev W8 : Dev nD → Valuation τ sig (Elt F) := fun c => StableHlo.after hostOps3_1 (W7 m ρ c)
abbrev W9 : Dev nD → Valuation τ sig (Elt F) := fun c => StableHlo.after hostOps3_2 (W8 m ρ c)

def Wn : ℕ → Dev nD → Valuation τ sig (Elt F)
  | 0 => W0 m ρ | 1 => W1 m ρ | 2 => W2 m ρ | 3 => W3 m ρ | 4 => W4 m ρ | 5 => W5 m ρ | 6 => W6 m ρ | 7 => W7 m ρ | 8 => W8 m ρ | _ => W9 m ρ

abbrev Kn (b : Ref sig .tc) : ℕ → Prop
  | 0 => b ∉ hostOps0_W
  | 1 => ∀ w, Pipeline.arrRef spec0 w = b → (cfg0.win w).isOut = false
  | 2 => b ∉ hostOps1_W
  | 3 => ∀ w, Pipeline.arrRef spec1 w = b → (cfg1.win w).isOut = false
  | 4 => b ∉ hostOps2_W
  | 5 => ∀ w, Pipeline.arrRef spec2 w = b → (cfg2.win w).isOut = false
  | 6 => b ∉ hostOps3_W
  | 7 => b ∉ hostOps3_1_W
  | 8 => b ∉ hostOps3_2_W
  | _ => False

noncomputable instance (b : Ref sig .tc) : DecidablePred (Kn b) := fun k => by unfold Kn; split <;> infer_instance

-- Item `k` does not change a buffer it does not write.
theorem step (c : Dev nD) (b : Ref sig .tc) : ∀ k, Kn b k → Wn m ρ (k + 1) c (Proc.devRef .tc b) = Wn m ρ k c (Proc.devRef .tc b)
  | 0, h => StableHlo.after_of_writes_sub hostOps0 _ hostOps0_writes h
  | 1, h => W2_keep m ρ c b h
  | 2, h => StableHlo.after_of_writes_sub hostOps1 _ hostOps1_writes h
  | 3, h => W4_keep m ρ c b h
  | 4, h => StableHlo.after_of_writes_sub hostOps2 _ hostOps2_writes h
  | 5, h => W6_keep m ρ c b h
  | 6, h => StableHlo.after_of_writes_sub hostOps3 _ hostOps3_writes h
  | 7, h => StableHlo.after_of_writes_sub hostOps3_1 _ hostOps3_1_writes h
  | 8, h => StableHlo.after_of_writes_sub hostOps3_2 _ hostOps3_2_writes h
  | _ + 9, h => h.elim

theorem keep (c : Dev nD) (b : Ref sig .tc) (i j : ℕ) (h : ∀ k, k < j → i ≤ k → Kn b k) (hij : i ≤ j := by decide) :
    Wn m ρ j c (Proc.devRef .tc b) = Wn m ρ i c (Proc.devRef .tc b) := by
  induction j, hij using Nat.le_induction with
  | base => rfl
  | succ n hn ih => exact (step m ρ c b n (h n n.lt_succ_self hn)).trans (ih fun k hk => h k (hk.trans n.lt_succ_self))

abbrev args : List (Ref sig .tc) :=
  [main_arg0, main_arg1, main_arg2, main_arg3, main_arg4, main_arg5, main_arg6, main_arg7, main_arg8, main_arg9, main_arg10, main_arg11, main_arg12]

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

theorem hinA {gr W : ℕ} (win : Fin W → Pipeline.WinSpec sig gr) (c : Dev nD) (pf : sProp 𝕄) :
    iprop((∃ r, prngReg c r) ∗ pf ∗ Pipeline.scopedRest win c) ⊢ (Pipeline.ΦA win c : sProp 𝕄) := by
  unfold Pipeline.ΦA; iintro ⟨Hp, -, Hr⟩; iframe Hr Hp
theorem houtA {gr W : ℕ} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA; iintro ⟨Hr, Hp⟩; iframe Hp Hr; iempintro

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, %W, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    iexists W; isplitr; · ipureintro; exact fun _ _ => Or.inl trivial
    iexact HO
  hin c := hinA spec0 c _
  hout c := by rw [Pipeline.ownSems0_none]; exact houtA spec0 c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (fun w => (W2_arr m ρ c w).symm) (fun b hb => W2_keep m ρ c b fun w e => absurd (Finset.mem_image.mpr ⟨w, Finset.mem_univ _, e⟩) hb)
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, %W, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    iexists W; isplitr; · ipureintro; exact fun _ _ => Or.inl trivial
    iexact HO
  hin c := hinA spec1 c _
  hout c := by rw [Pipeline.ownSems0_none]; exact houtA spec1 c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (fun w => (W4_arr m ρ c w).symm) (fun b hb => W4_keep m ρ c b fun w e => absurd (Finset.mem_image.mpr ⟨w, Finset.mem_univ _, e⟩) hb)
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, %W, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    iexists W; isplitr; · ipureintro; exact fun _ _ => Or.inl trivial
    iexact HO
  hin c := (hinA spec2 c _).trans (hin2 (V5 m ρ) c)
  hout c := by rw [Pipeline.ownSems0_none]; exact (hout2 (V5 m ρ) c).trans (houtA spec2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (fun w => (W6_arr m ρ c w).symm) (fun b hb => W6_keep m ρ c b fun w e => absurd (Finset.mem_image.mpr ⟨w, Finset.mem_univ _, e⟩) hb)
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)),
    .host (hseg hostOps3_2 hostOps3_2_sub hostOps3_2_fresh (W8 m ρ)) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_chain c, Pipeline.Seg.run_eq_chain]; rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

-- No item writes an argument, so the fold gives each one back as launched.
theorem args_kept (c : Dev nD) (μ : (ℓ : Loc nD τ sig) → Buf (Elt F) ℓ)
    (h : ∀ b ∈ Pipeline.ucRefs τ sig, μ ((c : Thread nD τ).1, b) = W9 m ρ c b) :
    args.Forall fun b => μ ((c : Thread nD τ).loc b) = m ((c : Thread nD τ).loc b) :=
  List.forall_iff_forall_mem.mpr fun b hb =>
    have hd := (by decide : ∀ b ∈ args, ¬ (Proc.devRef .tc b : DevRef τ sig).isScoped ∧ ∀ k, k < 9 → 0 ≤ k → Kn b k) b hb
    (h _ (mem_uc b hd.1)).trans (keep m ρ c b 0 9 hd.2)

theorem frame : θ_run defs (onTc (τ := τ) (main (F := F))) ⟨m, fun _ => 0, ρ⟩ (fun r => ∀ c : Dev nD,
      args.Forall fun b => r.2.mem ((c.tc : Thread nD τ).loc b) = m ((c.tc : Thread nD τ).loc b)) :=
  (θ_run defs _ _).mono (fun r h c => args_kept m ρ c r.2.mem (h c)) (run_all m ρ)

end Cert.KernelIdeal.Hand

end
-- ==== Proof.RefRun.lean ====
import proofs.«401631_j30562987278347_3_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ unary main_arg1 main_v0 (extractStridedSlice S1x3200000 ![0, 0] · slices_S2x3200000_S1x3200000_0_0),
    reshape main_v0 main_v1 rfl shapeCasts_S1x3200000_S3200000,
    unary main_arg1 main_v2 (extractStridedSlice S1x3200000 ![1, 0] · slices_S2x3200000_S1x3200000_1_0),
    reshape main_v2 main_v3 rfl shapeCasts_S1x3200000_S3200000,
    nullary main_cst (constant S_ .f32 0x3F800000#32),
    unary main_cst main_v4 (broadcastInDim S3200000 ![] bcast_S_S3200000),
    nullary main_cst_0 (constant S_ .f32 0x00000000#32),
    unary main_cst_0 main_v5 (broadcastInDim S100000 ![] bcast_S_S100000),
    unary main_v3 main_v6 (broadcastInDim S3200000x1 ![0] bcast_S3200000_S3200000x1_0),
    ternary main_v5 main_v6 main_v4 main_v7 (fun x i u => Host.scatterAdd scatter_S100000_S3200000x1_S3200000_n_0_0_1 x i u),
    nullary main_cst_1 (constant S_ .f32 0x3F800000#32),
    unary main_cst_1 main_v8 (broadcastInDim S100000 ![] bcast_S_S100000),
    binary main_v7 main_v8 main_v9 addf,
    unary main_v9 main_v10 Host.rsqrt ]

abbrev ops1 : List (HloOp τ sig (Elt F)) :=
  [ nullary main_c (constantI S_ 32 0#32),
    unary main_c main_v11 (broadcastInDim S3200000 ![] bcast_S_S3200000),
    binary main_v1 main_v11 main_v12 (cmpi .slt),
    nullary main_c_2 (constantI S_ 32 100000#32),
    unary main_c_2 main_v13 (broadcastInDim S3200000 ![] bcast_S_S3200000),
    binary main_v1 main_v13 main_v14 addi,
    ternary main_v12 main_v14 main_v1 main_v15 select,
    unary main_v15 main_v16 (broadcastInDim S3200000x1 ![0] bcast_S3200000_S3200000x1_0),
    binary main_v10 main_v16 main_v17 (fun x i => Host.gather gather_S100000_S3200000x1_S3200000_n_0_n_n_0_1_1 x i),
    nullary main_c_3 (constantI S_ 32 0#32),
    unary main_c_3 main_v18 (broadcastInDim S3200000 ![] bcast_S_S3200000),
    binary main_v3 main_v18 main_v19 (cmpi .slt),
    nullary main_c_4 (constantI S_ 32 100000#32),
    unary main_c_4 main_v20 (broadcastInDim S3200000 ![] bcast_S_S3200000),
    binary main_v3 main_v20 main_v21 addi,
    ternary main_v19 main_v21 main_v3 main_v22 select,
    unary main_v22 main_v23 (broadcastInDim S3200000x1 ![0] bcast_S3200000_S3200000x1_0),
    binary main_v10 main_v23 main_v24 (fun x i => Host.gather gather_S100000_S3200000x1_S3200000_n_0_n_n_0_1_1 x i),
    binary main_v17 main_v24 main_v25 mulf ]

abbrev ops2 : List (HloOp τ sig (Elt F)) :=
  [ binary main_arg0 main_arg3 main_v26 (fun l r => Host.dotGeneral dot_S100000x96_S96x64_S100000x64_1_0_0_1_n_n none l r),
    nullary main_c_5 (constantI S_ 32 0#32),
    unary main_c_5 main_v27 (broadcastInDim S3200000 ![] bcast_S_S3200000),
    binary main_v1 main_v27 main_v28 (cmpi .slt),
    nullary main_c_6 (constantI S_ 32 100000#32),
    unary main_c_6 main_v29 (broadcastInDim S3200000 ![] bcast_S_S3200000),
    binary main_v1 main_v29 main_v30 addi,
    ternary main_v28 main_v30 main_v1 main_v31 select,
    unary main_v31 main_v32 (broadcastInDim S3200000x1 ![0] bcast_S3200000_S3200000x1_0),
    binary main_v26 main_v32 main_v33 (fun x i => Host.gather gather_S100000x64_S3200000x1_S3200000x64_1_0_n_n_0_1_164 x i),
    unary main_v25 main_v34 (broadcastInDim S3200000x1 ![0] bcast_S3200000_S3200000x1_0),
    unary main_v34 main_v35 (broadcastInDim S3200000x64 ![0, 1] bcast_S3200000x1_S3200000x64_0_1),
    binary main_v33 main_v35 main_v36 mulf,
    nullary main_cst_7 (constant S_ .f32 0x00000000#32),
    unary main_cst_7 main_v37 (broadcastInDim S100000x64 ![] bcast_S_S100000x64),
    unary main_v3 main_v38 (broadcastInDim S3200000x1 ![0] bcast_S3200000_S3200000x1_0),
    ternary main_v37 main_v38 main_v36 main_v39 (fun x i u => Host.scatterAdd scatter_S100000x64_S3200000x1_S3200000x64_1_0_0_1 x i u),
    binary main_v10 main_v10 main_v40 mulf,
    unary main_v40 main_v41 (broadcastInDim S100000x1 ![0] bcast_S100000_S100000x1_0),
    unary main_v41 main_v42 (broadcastInDim S100000x64 ![0, 1] bcast_S100000x1_S100000x64_0_1),
    binary main_v26 main_v42 main_v43 mulf,
    binary main_v39 main_v43 main_v44 addf,
    unary main_arg4 main_v45 (broadcastInDim S1x64 ![1] bcast_S64_S1x64_1),
    unary main_v45 main_v46 (broadcastInDim S100000x64 ![0, 1] bcast_S1x64_S100000x64_0_1),
    binary main_v44 main_v46 main_v47 addf,
    TRef.nullary main_call0.cst (constant S_ .f32 0x00000000#32),
    TRef.unary main_call0.cst main_call0.v0 (broadcastInDim S100000x64 ![] bcast_S_S100000x64),
    TRef.binary (TRef.of main_v47 : TRef sig ⟨S100000x64, .f32⟩) main_call0.v0 main_call0.v1 maximumf ]

abbrev ops3 : List (HloOp τ sig (Elt F)) :=
  [ binary main_v48 main_arg5 main_v49 (fun l r => Host.dotGeneral dot_S100000x64_S64x64_S100000x64_1_0_0_1_n_n none l r),
    nullary main_c_8 (constantI S_ 32 0#32),
    unary main_c_8 main_v50 (broadcastInDim S3200000 ![] bcast_S_S3200000),
    binary main_v1 main_v50 main_v51 (cmpi .slt),
    nullary main_c_9 (constantI S_ 32 100000#32),
    unary main_c_9 main_v52 (broadcastInDim S3200000 ![] bcast_S_S3200000),
    binary main_v1 main_v52 main_v53 addi,
    ternary main_v51 main_v53 main_v1 main_v54 select,
    unary main_v54 main_v55 (broadcastInDim S3200000x1 ![0] bcast_S3200000_S3200000x1_0),
    binary main_v49 main_v55 main_v56 (fun x i => Host.gather gather_S100000x64_S3200000x1_S3200000x64_1_0_n_n_0_1_164 x i),
    unary main_v25 main_v57 (broadcastInDim S3200000x1 ![0] bcast_S3200000_S3200000x1_0),
    unary main_v57 main_v58 (broadcastInDim S3200000x64 ![0, 1] bcast_S3200000x1_S3200000x64_0_1),
    binary main_v56 main_v58 main_v59 mulf,
    nullary main_cst_10 (constant S_ .f32 0x00000000#32),
    unary main_cst_10 main_v60 (broadcastInDim S100000x64 ![] bcast_S_S100000x64),
    unary main_v3 main_v61 (broadcastInDim S3200000x1 ![0] bcast_S3200000_S3200000x1_0),
    ternary main_v60 main_v61 main_v59 main_v62 (fun x i u => Host.scatterAdd scatter_S100000x64_S3200000x1_S3200000x64_1_0_0_1 x i u),
    binary main_v10 main_v10 main_v63 mulf,
    unary main_v63 main_v64 (broadcastInDim S100000x1 ![0] bcast_S100000_S100000x1_0),
    unary main_v64 main_v65 (broadcastInDim S100000x64 ![0, 1] bcast_S100000x1_S100000x64_0_1),
    binary main_v49 main_v65 main_v66 mulf,
    binary main_v62 main_v66 main_v67 addf,
    unary main_arg6 main_v68 (broadcastInDim S1x64 ![1] bcast_S64_S1x64_1),
    unary main_v68 main_v69 (broadcastInDim S100000x64 ![0, 1] bcast_S1x64_S100000x64_0_1),
    binary main_v67 main_v69 main_v70 addf,
    TRef.nullary main_call1.cst (constant S_ .f32 0x00000000#32),
    TRef.unary main_call1.cst main_call1.v0 (broadcastInDim S100000x64 ![] bcast_S_S100000x64),
    TRef.binary (TRef.of main_v70 : TRef sig ⟨S100000x64, .f32⟩) main_call1.v0 main_call1.v1 maximumf ]

abbrev ops4 : List (HloOp τ sig (Elt F)) :=
  [ nullary main_cst_11 (constant S_ .f32 0x00000000#32),
    unary main_cst_11 main_v72 (broadcastInDim S128x64 ![] bcast_S_S128x64),
    unary main_arg2 main_v73 (broadcastInDim S100000x1 ![0] bcast_S100000_S100000x1_0),
    ternary main_v72 main_v73 main_v71 main_v74 (fun x i u => Host.scatterAdd scatter_S128x64_S100000x1_S100000x64_1_0_0_1 x i u),
    nullary main_cst_12 (constant S_ .f32 0x3F800000#32),
    unary main_cst_12 main_v75 (broadcastInDim S100000 ![] bcast_S_S100000),
    nullary main_cst_13 (constant S_ .f32 0x00000000#32),
    unary main_cst_13 main_v76 (broadcastInDim S128 ![] bcast_S_S128),
    unary main_arg2 main_v77 (broadcastInDim S100000x1 ![0] bcast_S100000_S100000x1_0),
    ternary main_v76 main_v77 main_v75 main_v78 (fun x i u => Host.scatterAdd scatter_S128_S100000x1_S100000_n_0_0_1 x i u),
    nullary main_cst_14 (constant S_ .f32 0x3F800000#32),
    unary main_cst_14 main_v79 (broadcastInDim S128 ![] bcast_S_S128),
    binary main_v78 main_v79 main_v80 maximumf,
    unary main_v80 main_v81 (broadcastInDim S128x1 ![0] bcast_S128_S128x1_0),
    unary main_v81 main_v82 (broadcastInDim S128x64 ![0, 1] bcast_S128x1_S128x64_0_1),
    binary main_v74 main_v82 main_v83 Host.divf ]

abbrev ops5 : List (HloOp τ sig (Elt F)) :=
  [ binary main_v83 main_arg7 main_v84 (fun l r => Host.dotGeneral dot_S128x64_S64x64_S128x64_1_0_0_1_n_n none l r),
    unary main_arg8 main_v85 (broadcastInDim S1x64 ![1] bcast_S64_S1x64_1),
    unary main_v85 main_v86 (broadcastInDim S128x64 ![0, 1] bcast_S1x64_S128x64_0_1),
    binary main_v84 main_v86 main_v87 addf,
    nullary main_cst_15 (constant S_ .f32 0x3C23D70A#32),
    TRef.nullary main_call2.cst (constant S_ .f32 0x00000000#32),
    TRef.unary main_call2.cst main_call2.v0 (broadcastInDim S128x64 ![] bcast_S_S128x64),
    TRef.binary (TRef.of main_v87 : TRef sig ⟨S128x64, .f32⟩) main_call2.v0 main_call2.v1 (cmpf .oge),
    TRef.unary (TRef.of main_cst_15 : TRef sig ⟨S_, .f32⟩) main_call2.v2 id,
    TRef.unary main_call2.v2 main_call2.v3 (broadcastInDim S128x64 ![] bcast_S_S128x64),
    TRef.binary main_call2.v3 (TRef.of main_v87 : TRef sig ⟨S128x64, .f32⟩) main_call2.v4 mulf,
    TRef.ternary main_call2.v1 (TRef.of main_v87 : TRef sig ⟨S128x64, .f32⟩) main_call2.v4 main_call2.call0.v0 select,
    binary main_v88 main_arg9 main_v89 (fun l r => Host.dotGeneral dot_S128x64_S64x32_S128x32_1_0_0_1_n_n none l r),
    unary main_arg10 main_v90 (broadcastInDim S1x32 ![1] bcast_S32_S1x32_1),
    unary main_v90 main_v91 (broadcastInDim S128x32 ![0, 1] bcast_S1x32_S128x32_0_1),
    binary main_v89 main_v91 main_v92 addf,
    binary main_v92 main_arg11 main_v93 (fun l r => Host.dotGeneral dot_S128x32_S32x2_S128x2_1_0_0_1_n_n none l r),
    unary main_arg12 main_v94 (broadcastInDim S1x2 ![1] bcast_S2_S1x2_1),
    unary main_v94 main_v95 (broadcastInDim S128x2 ![0, 1] bcast_S1x2_S128x2_0_1),
    binary main_v93 main_v95 main_v96 addf ]

abbrev ops : List (HloOp τ sig (Elt F)) := ops0 ++ ops1 ++ ops2 ++ ops3 ++ ops4 ++ ops5

-- the line is the six stages in order, so what holds of every operation of every stage holds along the line
theorem forall_ops {P : HloOp τ sig (Elt F) → Prop}
    (h : [ops0 (F := F), ops1, ops2, ops3, ops4, ops5].Forall (List.Forall P)) : (ops (F := F)).Forall P :=
  List.forall_append.mpr ⟨List.forall_append.mpr ⟨List.forall_append.mpr ⟨List.forall_append.mpr ⟨List.forall_append.mpr ⟨h.1, h.2.1⟩, h.2.2.1⟩, h.2.2.2.1⟩, h.2.2.2.2.1⟩, h.2.2.2.2.2⟩

theorem after_ops (V : Valuation τ sig (Elt F)) :
    after ops V = after ops5 (after ops4 (after ops3 (after ops2 (after ops1 (after ops0 V))))) := by
  simp only [ops, after_append]

theorem main_eq (c : Dev nD) : main (F := F) c = seq ops := rfl

theorem ops_sub : (ops : List (HloOp τ sig (Elt F))).Forall fun op => op.bufs ⊆ tcRefs τ sig :=
  forall_ops (by
    simp only [List.Forall]
    repeat' constructor
    all_goals simp only [nullary_bufs_sub, unary_bufs_sub, binary_bufs_sub, ternary_bufs_sub, reshape_bufs_sub])

theorem ops_fresh : (ops : List (HloOp τ sig (Elt F))).Forall fun op => op.fresh = ∅ :=
  forall_ops (by simp only [List.Forall]; repeat' constructor)

theorem scopedRefs_eq : (Finset.univ.filter fun b : Ref sig .tc => b.isScoped) = ∅ := by decide
theorem scopedSems_eq : (Finset.univ.filter fun sm : SemLoc sig => sm.isScoped .tc) = ∅ := by decide

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

abbrev W : List (Ref sig .tc) :=
  [ main_v0, main_v1, main_v2, main_v3, main_cst, main_v4, main_cst_0, main_v5, main_v6, main_v7,
    main_cst_1, main_v8, main_v9, main_v10, main_c, main_v11, main_v12, main_c_2, main_v13, main_v14,
    main_v15, main_v16, main_v17, main_c_3, main_v18, main_v19, main_c_4, main_v20, main_v21, main_v22,
    main_v23, main_v24, main_v25, main_v26, main_c_5, main_v27, main_v28, main_c_6, main_v29, main_v30,
    main_v31, main_v32, main_v33, main_v34, main_v35, main_v36, main_cst_7, main_v37, main_v38, main_v39,
    main_v40, main_v41, main_v42, main_v43, main_v44, main_v45, main_v46, main_v47, main_call0_cst, main_call0_v0,
    main_v48, main_v49, main_c_8, main_v50, main_v51, main_c_9, main_v52, main_v53, main_v54, main_v55,
    main_v56, main_v57, main_v58, main_v59, main_cst_10, main_v60, main_v61, main_v62, main_v63, main_v64,
    main_v65, main_v66, main_v67, main_v68, main_v69, main_v70, main_call1_cst, main_call1_v0, main_v71, main_cst_11,
    main_v72, main_v73, main_v74, main_cst_12, main_v75, main_cst_13, main_v76, main_v77, main_v78, main_cst_14,
    main_v79, main_v80, main_v81, main_v82, main_v83, main_v84, main_v85, main_v86, main_v87, main_cst_15,
    main_call2_cst, main_call2_v0, main_call2_v1, main_call2_v2, main_call2_v3, main_call2_v4, main_v88, main_v89, main_v90, main_v91,
    main_v92, main_v93, main_v94, main_v95, main_v96 ]

-- every operation writes one array, and W lists them all
theorem stage_writes : [ops0 (F := F), ops1, ops2, ops3, ops4, ops5].Forall
    (List.Forall fun op => op.writes ⊆ (W.map (Proc.devRef (τ := τ) .tc)).toFinset) := by
  simp only [List.Forall]
  repeat' constructor
  all_goals exact Finset.singleton_subset_iff.mpr (List.mem_toFinset.mpr (List.mem_map_of_mem (by decide)))

theorem after_ops_of_not_mem (V : Valuation τ sig (Elt F)) {r : Ref sig .tc} (hr : r ∉ W) :
    after ops V (r : DevRef τ sig) = V (r : DevRef τ sig) :=
  after_of_writes_sub ops V (forall_ops stage_writes) hr

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => by
    refine ⟨?_, ?_, ?_, ?_, ?_, ?_, ?_, ?_, ?_, ?_, ?_, ?_, ?_⟩ <;> exact (h c _).trans (after_ops_of_not_mem _ (by decide)))
    (run_all m ρ)

theorem ofBuf_toBuf {T : BufTy} {Val : EltTy → Type} (x : TRef sig T) (u : T.Contents Val) : x.ofBuf (x.toBuf u) = u := by
  obtain ⟨r, h1, h2, h3⟩ := x
  subst h1
  rfl

end Cert.ReferenceIdeal.Hand

end
-- ==== Proof.KKeep.lean ====
import proofs.«401631_j30562987278347_3_alg».proof.Proof.KRun
import Idealize.ShloMosaic.PureOps.Ideal

set_option maxRecDepth 16384

noncomputable section

namespace Cert.KernelIdeal.Val

open Cert.KernelIdeal Cert.KernelIdeal.Gen Cert.KernelIdeal.Hand
open Idealize.ShloMosaic Idealize.ShloMosaic.TcCoe

variable (m : (ℓ : Loc nD τ sig) → Buf (Elt Ideal) ℓ) (ρ : Dev nD → PrngReg) (c : Dev nD)

theorem V1_arg0 : W1 m ρ c (Proc.devRef .tc main_arg0) = m ((c : Thread nD τ).loc main_arg0) := keep m ρ c _ 0 1 (by decide)
theorem V1_arg3 : W1 m ρ c (Proc.devRef .tc main_arg3) = m ((c : Thread nD τ).loc main_arg3) := keep m ρ c _ 0 1 (by decide)
theorem W2_v1 : W2 m ρ c (Proc.devRef .tc main_v1) = W1 m ρ c (Proc.devRef .tc main_v1) := keep m ρ c _ 1 2 (by decide)
theorem W2_v3 : W2 m ρ c (Proc.devRef .tc main_v3) = W1 m ρ c (Proc.devRef .tc main_v3) := keep m ρ c _ 1 2 (by decide)
theorem W2_arg4 : W2 m ρ c (Proc.devRef .tc main_arg4) = m ((c : Thread nD τ).loc main_arg4) := keep m ρ c _ 0 2 (by decide)
theorem W2_v12 : W2 m ρ c (Proc.devRef .tc main_v12) = (dat0 (V1 m ρ) c).arrAt 3 cfg0.N := W2_arr m ρ c 3
theorem V3_v11 : W3 m ρ c (Proc.devRef .tc main_v11) = W1 m ρ c (Proc.devRef .tc main_v11) := keep m ρ c _ 1 3 (by decide)
theorem V3_v12 : W3 m ρ c (Proc.devRef .tc main_v12) = (dat0 (V1 m ρ) c).arrAt 3 cfg0.N :=
  (keep m ρ c main_v12 2 3 (by decide)).trans (W2_arr m ρ c 3)
theorem V3_arg5 : W3 m ρ c (Proc.devRef .tc main_arg5) = m ((c : Thread nD τ).loc main_arg5) := keep m ρ c _ 0 3 (by decide)
theorem W4_v1 : W4 m ρ c (Proc.devRef .tc main_v1) = W1 m ρ c (Proc.devRef .tc main_v1) := keep m ρ c _ 1 4 (by decide)
theorem W4_v3 : W4 m ρ c (Proc.devRef .tc main_v3) = W1 m ρ c (Proc.devRef .tc main_v3) := keep m ρ c _ 1 4 (by decide)
theorem W4_v24 : W4 m ρ c (Proc.devRef .tc main_v24) = (dat1 (V3 m ρ) c).arrAt 5 cfg1.N := W4_arr m ρ c 5
theorem W4_arg2 : W4 m ρ c (Proc.devRef .tc main_arg2) = m ((c : Thread nD τ).loc main_arg2) := keep m ρ c _ 0 4 (by decide)
theorem W4_arg6 : W4 m ρ c (Proc.devRef .tc main_arg6) = m ((c : Thread nD τ).loc main_arg6) := keep m ρ c _ 0 4 (by decide)
theorem V5_v11 : W5 m ρ c (Proc.devRef .tc main_v11) = W1 m ρ c (Proc.devRef .tc main_v11) := keep m ρ c _ 1 5 (by decide)
theorem V5_v24 : W5 m ρ c (Proc.devRef .tc main_v24) = (dat1 (V3 m ρ) c).arrAt 5 cfg1.N :=
  (keep m ρ c main_v24 4 5 (by decide)).trans (W4_arr m ρ c 5)
theorem W6_v37_0 : W6 m ρ c (Proc.devRef .tc main_v37_0) = (dat2 (V5 m ρ) c).arrAt 5 cfg2.N := W6_arr m ρ c 5
theorem W6_v37_1 : W6 m ρ c (Proc.devRef .tc main_v37_1) = (dat2 (V5 m ρ) c).arrAt 6 cfg2.N := W6_arr m ρ c 6
theorem W6_arg7 : W6 m ρ c (Proc.devRef .tc main_arg7) = m ((c : Thread nD τ).loc main_arg7) := keep m ρ c _ 0 6 (by decide)
theorem W6_arg8 : W6 m ρ c (Proc.devRef .tc main_arg8) = m ((c : Thread nD τ).loc main_arg8) := keep m ρ c _ 0 6 (by decide)
theorem W6_arg9 : W6 m ρ c (Proc.devRef .tc main_arg9) = m ((c : Thread nD τ).loc main_arg9) := keep m ρ c _ 0 6 (by decide)
theorem W6_arg10 : W6 m ρ c (Proc.devRef .tc main_arg10) = m ((c : Thread nD τ).loc main_arg10) := keep m ρ c _ 0 6 (by decide)
theorem W6_arg11 : W6 m ρ c (Proc.devRef .tc main_arg11) = m ((c : Thread nD τ).loc main_arg11) := keep m ρ c _ 0 6 (by decide)
theorem W6_arg12 : W6 m ρ c (Proc.devRef .tc main_arg12) = m ((c : Thread nD τ).loc main_arg12) := keep m ρ c _ 0 6 (by decide)

end Cert.KernelIdeal.Val

end
-- ==== Proof.LibPlainDot.lean ====
import Idealize.ShloMosaic.PureOps.Ideal.Laws
import Idealize.ShloMosaic.Lib.ValueIdx

namespace Idealize.ShloMosaic.PlainDot

open Idealize.ShloMosaic Idealize.ShloMosaic.ValueIdx

variable {sl sr so : Shape}

theorem idx_val_congr (j : so.Idx) {p q : Nat} (hp : p < so.rank) (hq : q < so.rank) (h : p = q) :
    (j ⟨p, hp⟩).val = (j ⟨q, hq⟩).val := by subst h; rfl

-- With no batch axis, the one left axis that is not contracted carries the result index's coordinate 0.
theorem lhsIdx_val_of_non (d : DotDims sl sr so) {a : Fin sl.rank} (hb : d.lhsBatch = []) (hn : d.lhsNonContracting = [a])
    (j : so.Idx) (k : d.contr.Idx) (h0 : 0 < so.rank) : (d.lhsIdx j k a).val = (j ⟨0, h0⟩).val := by
  unfold DotDims.lhsIdx
  rw [dif_neg (by rw [hb]; exact List.not_mem_nil), dif_pos (by rw [hn]; exact List.mem_singleton.mpr rfl)]
  simp only [Fin.val_cast]
  exact idx_val_congr j _ _ (by simp [hb, hn])

theorem rhsIdx_val_of_non (d : DotDims sl sr so) {a : Fin sr.rank} {al : Fin sl.rank} (hlb : d.lhsBatch = []) (hrb : d.rhsBatch = [])
    (hln : d.lhsNonContracting = [al]) (hn : d.rhsNonContracting = [a])
    (j : so.Idx) (k : d.contr.Idx) (h1 : 1 < so.rank) : (d.rhsIdx j k a).val = (j ⟨1, h1⟩).val := by
  unfold DotDims.rhsIdx
  rw [dif_neg (by rw [hrb]; exact List.not_mem_nil), dif_pos (by rw [hn]; exact List.mem_singleton.mpr rfl)]
  simp only [Fin.val_cast]
  exact idx_val_congr j _ _ (by simp [hlb, hln, hn])

theorem contr_rank_one (d : DotDims sl sr so) {cl : Fin sl.rank} (hc : d.lhsContracting = [cl]) : d.contr.rank = 1 := by
  rw [d.rank_contr, hc]; rfl

theorem contr_size_zero (d : DotDims sl sr so) {cl : Fin sl.rank} (hc : d.lhsContracting = [cl]) (h : 0 < d.contr.rank) :
    d.contr.size ⟨0, h⟩ = sl.size cl := by
  rw [d.size_contr 0 (by rw [hc]; exact Nat.one_pos)]
  simp [hc]

-- Into a zero accumulator the product at (p, q) sums over k: each operand index has k on its contracting axis and p, or q, on the other.
theorem matmul2_apply {l0 l1 r0 r1 M N K : Nat} {φ₁ φ₂ : FTy} (d : DotDims ⟨2, ![l0, l1]⟩ ⟨2, ![r0, r1]⟩ ⟨2, ![M, N]⟩)
    {cl nl cr nr : Fin 2} (hlc : d.lhsContracting = [cl]) (hrc : d.rhsContracting = [cr]) (hln : d.lhsNonContracting = [nl])
    (hrn : d.rhsNonContracting = [nr]) (hlb : d.lhsBatch = []) (hrb : d.rhsBatch = []) (hK : ![l0, l1] cl = K)
    (hl2 : ∀ a, a = cl ∨ a = nl) (hr2 : ∀ a, a = cr ∨ a = nr) (prec : Option ContractPrecision)
    (l : FVec Ideal ⟨2, ![l0, l1]⟩ φ₁) (r : FVec Ideal ⟨2, ![r0, r1]⟩ φ₂) (p : Fin M) (q : Fin N)
    (L : Fin K → (⟨2, ![l0, l1]⟩ : Shape).Idx) (R : Fin K → (⟨2, ![r0, r1]⟩ : Shape).Idx)
    (hL : ∀ k, (L k cl).val = k.val ∧ (L k nl).val = p.val) (hR : ∀ k, (R k cr).val = k.val ∧ (R k nr).val = q.val) :
    FloatOps.matmul d prec l r (constant ⟨2, ![M, N]⟩ .f32 0x00000000#32) (ix2 p q) = ∑ k : Fin K, l (L k) * r (R k) := by
  have hr : d.contr.rank = 1 := contr_rank_one d hlc
  have hs : d.contr.size ⟨0, by omega⟩ = K := (contr_size_zero d hlc (by omega)).trans hK
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = L k := funext fun a => Fin.ext (by
    rcases hl2 a with rfl | rfl
    · exact ((d.lhsIdx_val_of_single hlc _ _).trans hk).trans (hL k).1.symm
    · exact (lhsIdx_val_of_non d hlb hln _ _ (by show 0 < 2; omega)).trans (hL k).2.symm)
  have er : d.rhsIdx (ix2 p q) ((contrEquiv1 d K hr hs).symm k) = R k := funext fun a => Fin.ext (by
    rcases hr2 a with rfl | rfl
    · exact ((d.rhsIdx_val_of_single hrc _ _).trans hk).trans (hR k).1.symm
    · exact (rhsIdx_val_of_non d hlb hrb hln hrn _ _ (by show 1 < 2; omega)).trans (hR k).2.symm)
  rw [el, er]

theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) :=
  matmul2_apply d hlc hrc hln hrn hlb hrb rfl (by decide : ∀ a : Fin 2, a = 1 ∨ a = 0) (by decide : ∀ a : Fin 2, a = 0 ∨ a = 1) prec l r p q
    (fun k => ix2 p k) (fun k => ix2 k q)
    (fun _ => ⟨rfl, rfl⟩) (fun _ => ⟨rfl, rfl⟩)

end Idealize.ShloMosaic.PlainDot
-- ==== Proof.LibUnitAxis.lean ====
import Idealize.ShloMosaic.Lib.ValueLayout

namespace Idealize.ShloMosaic.UnitAxis

open Idealize.ShloMosaic Idealize.ShloMosaic.ValueIdx

variable {α : Type}

-- A coordinate on an axis of extent 1 is 0: the per-axis condition of a broadcast holds for a kept coordinate.
theorem val_eq_ite {n : ℕ} (p : Fin n) : p.val = if n = 1 then 0 else p.val := by
  split
  · omega
  · rfl

theorem broadcastInDim_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun a => a.elim0)

theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply _ h v (ix2 p u) (ix1 p) fun | ⟨0, _⟩ => val_eq_ite p

theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    rw [Shape.rowMajor_val_one, Shape.rowMajor_val_two]
    show p.val = p.val * 1 + u.val
    omega)

end Idealize.ShloMosaic.UnitAxis
-- ==== Proof.LibKeepdims.lean ====
import proofs.«401631_j30562987278347_3_alg».proof.Proof.LibUnitAxis

namespace Idealize.ShloMosaic.Keepdims

open Idealize.ShloMosaic Idealize.ShloMosaic.ValueIdx

variable {α : Type}

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) :=
  broadcastTo_apply v h (ix2 p c) (ix2 p (0 : Fin 1)) fun
    | ⟨0, _⟩ => UnitAxis.val_eq_ite p
    | ⟨1, _⟩ => rfl

end Idealize.ShloMosaic.Keepdims
-- ==== Proof.KPay0.lean ====
import proofs.«401631_j30562987278347_3_alg».proof.Proof.Gen.KernelIdeal.Skeleton
import proofs.«401631_j30562987278347_3_alg».proof.Proof.LibPlainDot
import proofs.«401631_j30562987278347_3_alg».proof.Proof.LibKeepdims
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

theorem pay0_apply (x0 : Vec Ideal S4000x96 .f32) (x1 : Vec Ideal S96x64 .f32) (x2 : Vec Ideal S4000x1 .f32)
    (p : Fin 4000) (q : Fin 64) :
    Gen.k0_pay1 (F := Ideal) x0 x1 x2 (ix2 p q) = (∑ k : Fin 96, x0 (ix2 p k) * x1 (ix2 k q)) * x2 (ix2 p 0) := by
  dsimp only [k0_pay1]
  rw [mulf_apply, Keepdims.broadcastTo_a1_ab_apply, shapeCast_self]
  exact congrArg (· * x2 (ix2 p 0))
    (PlainDot.matmul_plain_apply dot_S4000x96_S96x64_S4000x64_1_0_0_1_n_n rfl rfl rfl rfl rfl rfl none
      (truncf .bf16 x0 bitsLt_bf16_f32) (truncf .bf16 x1 bitsLt_bf16_f32) p q)

end Cert.KernelIdeal.Val

end
-- ==== Proof.LibScatterGather.lean ====
import Idealize.ShloMosaic.PureOps.Ideal
import Idealize.ShloMosaic.PureOps.Ideal.Laws
import Idealize.ShloMosaic.Lib.ValueIdx
import Idealize.ShloMosaic.Lib.StableHlo.Predicate

noncomputable section

namespace Cert.Decode

open Idealize.ShloMosaic Idealize.ShloMosaic.ValueIdx

def landing (n : Nat) (w : BitVec 32) : Option (Fin n) :=
  if h : 0 ≤ w.toInt ∧ w.toInt < n then some ⟨w.toInt.toNat, by omega⟩ else none

def rowOf (n : Nat) (hn : 0 < n) (w : BitVec 32) : Fin n := ⟨min w.toInt.toNat (n - 1), by omega⟩

theorem landing_iff {n : Nat} (w : BitVec 32) (k : Fin n) : landing n w = some k ↔ w.toInt = (k.val : Int) := by
  have := k.isLt
  unfold landing
  split
  · rw [Option.some.injEq, Fin.ext_iff]
    show w.toInt.toNat = k.val ↔ _
    omega
  · exact ⟨fun h => (nomatch h), fun h => absurd h (by omega)⟩

section Scatter

variable {s u : Shape} {m w : Nat} (d : ScatterDims s ⟨2, ![m, 1]⟩ u) (idx : IVec ⟨2, ![m, 1]⟩ w) (j : u.Idx)

-- An update lands on R exactly when, on every axis, its window start plus its window coordinate is R's coordinate.
theorem resultIdx_iff (R : s.Idx) :
    d.resultIdx? j idx = some R ↔ ∀ a, d.start j idx a + (d.window j a : Int) = ((R a).val : Int) := by
  unfold ScatterDims.resultIdx?
  split
  · rename_i h
    rw [Option.some.injEq, funext_iff]
    refine forall_congr' fun a => ?_
    rw [Fin.ext_iff]
    show (d.start j idx a + (d.window j a : Int)).toNat = (R a).val ↔ _
    have := h a
    omega
  · rename_i h
    exact ⟨fun e => (nomatch e), fun e => absurd (fun a => by have := (R a).isLt; rw [e a]; omega) h⟩

-- With one scatter axis x0 of the updates, update j reads its start index at row (j x0) of the index column.
theorem siIdx_eq (hiv : d.indexVectorDim = 1) {x0 : Fin u.rank} (hX : ∀ X ∈ d.uScatter, X = x0) (c : Fin d.scatterDimsToOperandDims.length)
    (t : (⟨2, ![m, 1]⟩ : Shape).Idx) (ht : (t 0).val = (j x0).val) : d.siIdx j c = t := by
  funext b
  apply Fin.ext
  match b with
  | ⟨0, _⟩ =>
    unfold ScatterDims.siIdx
    rw [dif_neg (by rw [hiv]; simp)]
    unfold ScatterDims.siCoord
    simp only [Fin.val_cast]
    have e : ∀ X, X ∈ d.uScatter → (j X).val = (t 0).val := fun X h => by rw [hX X h, ht]
    exact e _ (List.getElem_mem _)
  | ⟨1, hb⟩ =>
    have h1 : (t ⟨1, hb⟩).val < 1 := (t ⟨1, hb⟩).isLt
    have h2 : (d.siIdx j c ⟨1, hb⟩).val < 1 := (d.siIdx j c ⟨1, hb⟩).isLt
    omega

theorem start_add_window (hiv : d.indexVectorDim = 1) {a0 : Fin s.rank} (hsd : d.scatterDimsToOperandDims = [a0]) (ha : a0 ∉ d.sKept)
    {x0 : Fin u.rank} (hX : ∀ X ∈ d.uScatter, X = x0) (t : (⟨2, ![m, 1]⟩ : Shape).Idx) (ht : (t 0).val = (j x0).val) :
    d.start j idx a0 + (d.window j a0 : Int) = (idx t).toInt := by
  unfold ScatterDims.start ScatterDims.window
  rw [dif_pos (by rw [hsd]; exact List.mem_singleton.2 rfl), dif_neg ha, siIdx_eq d j hiv hX _ t ht]
  simp

end Scatter

theorem scatterAdd_scalar {n m : Nat} (d : ScatterDims ⟨1, ![n]⟩ ⟨2, ![m, 1]⟩ ⟨1, ![m]⟩)
    (huw : d.updateWindowDims = []) (hiw : d.insertedWindowDims = [0]) (hsd : d.scatterDimsToOperandDims = [0]) (hiv : d.indexVectorDim = 1)
    (x : (⟨1, ![n]⟩ : Shape).Idx → EReal) (idx : IVec ⟨2, ![m, 1]⟩ 32) (upd : (⟨1, ![m]⟩ : Shape).Idx → EReal) (k : Fin n) :
    Host.scatterAdd (F := Ideal) (φ := .f32) d x idx upd (ix1 k)
      = x (ix1 k) + ∑ e ∈ Finset.univ.filter (fun e : Fin m => landing n (idx (ix2 e 0)) = some k), upd (ix1 e) := by
  have hmem : ∀ j : (⟨1, ![m]⟩ : Shape).Idx,
      d.resultIdx? j idx = some (ix1 k) ↔ landing n (idx (ix2 (j 0) 0)) = some k := fun j => by
    have h0 := start_add_window d idx j hiv hsd (by simp [ScatterDims.sKept, Shape.kept, hiw]) (fun X _ => Fin.fin_one_eq_zero X) (ix2 (j 0) 0) rfl
    rw [resultIdx_iff, landing_iff]
    exact ⟨fun h => h0.symm.trans (h 0), fun h (a : Fin 1) => by rw [Fin.fin_one_eq_zero a]; exact h0.trans h⟩
  show x (ix1 k) + ∑ j ∈ Finset.univ.filter (fun j => d.resultIdx? j idx = some (ix1 k)), upd j = _
  congr 1
  refine Finset.sum_bij' (fun j _ => j 0) (fun e _ => ix1 e)
    (fun j hj => Finset.mem_filter.2 ⟨Finset.mem_univ _, (hmem j).1 (Finset.mem_filter.1 hj).2⟩)
    (fun e he => Finset.mem_filter.2 ⟨Finset.mem_univ _, (hmem (ix1 e)).2 (Finset.mem_filter.1 he).2⟩)
    (fun j _ => (eq_ix1 j).symm) (fun _ _ => rfl) (fun j _ => congrArg upd (eq_ix1 j))

theorem scatterAdd_rows {n m h : Nat} (d : ScatterDims ⟨2, ![n, h]⟩ ⟨2, ![m, 1]⟩ ⟨2, ![m, h]⟩)
    (huw : d.updateWindowDims = [1]) (hiw : d.insertedWindowDims = [0]) (hsd : d.scatterDimsToOperandDims = [0]) (hiv : d.indexVectorDim = 1)
    (x : (⟨2, ![n, h]⟩ : Shape).Idx → EReal) (idx : IVec ⟨2, ![m, 1]⟩ 32) (upd : (⟨2, ![m, h]⟩ : Shape).Idx → EReal) (k : Fin n) (j : Fin h) :
    Host.scatterAdd (F := Ideal) (φ := .f32) d x idx upd (ix2 k j)
      = x (ix2 k j) + ∑ e ∈ Finset.univ.filter (fun e : Fin m => landing n (idx (ix2 e 0)) = some k), upd (ix2 e j) := by
  have hX : ∀ X ∈ d.uScatter, X = (0 : Fin 2) := fun (X : Fin 2) hX => by
    have hne : X ≠ 1 := by simpa [ScatterDims.uScatter, Shape.kept, huw] using hX
    have hlt : X.val < 2 := X.isLt
    have hv : X.val ≠ 1 := fun hv => hne (Fin.ext hv)
    apply Fin.ext
    show X.val = 0
    omega
  have hmem : ∀ q : (⟨2, ![m, h]⟩ : Shape).Idx,
      d.resultIdx? q idx = some (ix2 k j) ↔ landing n (idx (ix2 (q 0) 0)) = some k ∧ q 1 = j := fun q => by
    have h0 := start_add_window d idx q hiv hsd (by simp [ScatterDims.sKept, Shape.kept, hiw]) hX (ix2 (q 0) 0) rfl
    have h1 : d.start q idx 1 + (d.window q 1 : Int) = ((q 1).val : Int) := by
      have e : ∀ X : Fin 2, X ∈ d.updateWindowDims → (q X).val = (q 1).val := fun X hX => by
        rw [huw] at hX; rw [List.mem_singleton.1 hX]
      unfold ScatterDims.start ScatterDims.window
      rw [dif_neg (by rw [hsd]; simp), dif_pos (by simp [ScatterDims.sKept, Shape.kept, hiw]), e _ (List.getElem_mem _)]
      simp
    rw [resultIdx_iff, landing_iff]
    exact ⟨fun e => ⟨h0.symm.trans (e 0), Fin.ext (Int.ofNat_inj.1 (h1.symm.trans (e 1)))⟩,
      fun e => Fin.forall_fin_two.2 ⟨h0.trans e.1, h1.trans (Int.ofNat_inj.2 (congrArg Fin.val e.2))⟩⟩
  show x (ix2 k j) + ∑ q ∈ Finset.univ.filter (fun q => d.resultIdx? q idx = some (ix2 k j)), upd q = _
  congr 1
  refine Finset.sum_bij' (fun q _ => q 0) (fun e _ => ix2 e j)
    (fun q hq => Finset.mem_filter.2 ⟨Finset.mem_univ _, ((hmem q).1 (Finset.mem_filter.1 hq).2).1⟩)
    (fun e he => Finset.mem_filter.2 ⟨Finset.mem_univ _, (hmem (ix2 e j)).2 ⟨(Finset.mem_filter.1 he).2, rfl⟩⟩)
    (fun q hq => ?_) (fun _ _ => rfl) (fun q hq => ?_)
  · show ix2 (q 0) j = q
    rw [← ((hmem q).1 (Finset.mem_filter.1 hq).2).2]; exact (eq_ix2 q).symm
  · show upd q = upd (ix2 (q 0) j)
    rw [← ((hmem q).1 (Finset.mem_filter.1 hq).2).2]; exact congrArg upd (eq_ix2 q)

section GatherRows

variable {N n h : Nat} (d : GatherDims ⟨2, ![N, h]⟩ ⟨2, ![n, 1]⟩ ⟨2, ![n, h]⟩)

theorem gatherSiIdx_rows (hoff : d.offsetDims = [1]) (hivd : d.indexVectorDim = 1)
    (q : (⟨2, ![n, h]⟩ : Shape).Idx) (c : Fin d.startIndexMap.length) : d.siIdx q c = ix2 (q 0) 0 := by
  have hX : ∀ X : Fin 2, X ∈ d.batchDims → (q X).val = (q 0).val := fun X hX => by
    have hne : X ≠ 1 := by simpa [GatherDims.batchDims, Shape.kept, hoff] using hX
    have hlt : X.val < 2 := X.isLt
    have hv : X.val ≠ 1 := fun hv => hne (Fin.ext hv)
    rw [show X = 0 from Fin.ext (by show X.val = 0; omega)]
  funext b
  apply Fin.ext
  match b with
  | ⟨0, _⟩ =>
    unfold GatherDims.siIdx
    rw [dif_neg (by rw [hivd]; simp)]
    unfold GatherDims.siCoord
    simp only [Fin.val_cast]
    exact hX _ (List.getElem_mem _)
  | ⟨1, hb⟩ =>
    have h1 : (d.siIdx q c ⟨1, hb⟩).val < 1 := (d.siIdx q c ⟨1, hb⟩).isLt
    show _ = 0
    omega

theorem operandIdx_rows (hoff : d.offsetDims = [1]) (hcoll : d.collapsedSliceDims = [0]) (hob : d.operandBatchingDims = [])
    (hsim : d.startIndexMap = [0]) (hivd : d.indexVectorDim = 1) (hss : d.sliceSizes = ![1, h])
    (idx : IVec ⟨2, ![n, 1]⟩ 32) (q : (⟨2, ![n, h]⟩ : Shape).Idx) (hN : 0 < N) :
    d.operandIdx q idx = (ix2 (rowOf N hN (idx (ix2 (q 0) 0))) (q 1) : (⟨2, ![N, h]⟩ : Shape).Idx) := by
  have hb : ∀ a : Fin 2, a ∉ d.operandBatchingDims := fun a => by rw [hob]; exact List.not_mem_nil
  have hk0 : (0 : Fin 2) ∉ d.sKept := by rw [GatherDims.mem_sKept, hcoll]; simp
  have hk1 : (1 : Fin 2) ∈ d.sKept := by rw [GatherDims.mem_sKept, hcoll, hob]; simp
  have hm0 : (0 : Fin 2) ∈ d.startIndexMap := by rw [hsim]; exact List.mem_singleton.mpr rfl
  have hm1 : (1 : Fin 2) ∉ d.startIndexMap := by rw [hsim]; simp
  have hsl : d.sliceSizes 0 = 1 := by rw [hss]; rfl
  funext a
  revert a
  refine Fin.forall_fin_two.2 ⟨?_, ?_⟩
  · apply Fin.ext
    show d.start q idx 0 + d.batchCoord q 0 + d.offCoord q 0 = min (idx (ix2 (q 0) 0)).toInt.toNat (N - 1)
    rw [GatherDims.batchCoord_eq_zero _ _ _ (hb 0), GatherDims.offCoord_eq_zero _ _ _ hk0]
    simp only [Nat.add_zero]
    unfold GatherDims.start
    rw [dif_pos hm0, gatherSiIdx_rows d hoff hivd, hsl]
    rfl
  · apply Fin.ext
    show d.start q idx 1 + d.batchCoord q 1 + d.offCoord q 1 = (q 1).val
    rw [GatherDims.batchCoord_eq_zero _ _ _ (hb 1)]
    unfold GatherDims.start GatherDims.offCoord
    rw [dif_neg hm1, dif_pos hk1]
    simp only [Nat.add_zero, Nat.zero_add]
    have e : ∀ X : Fin 2, X ∈ d.offsetDims → (q X).val = (q 1).val := fun X hX => by
      rw [hoff] at hX; rw [List.mem_singleton.1 hX]
    exact e _ (List.getElem_mem _)

end GatherRows

theorem gather_scalar {α : Type} {N n : Nat} (d : GatherDims ⟨1, ![N]⟩ ⟨2, ![n, 1]⟩ ⟨1, ![n]⟩)
    (hcoll : d.collapsedSliceDims = [0]) (hob : d.operandBatchingDims = []) (hsim : d.startIndexMap = [0]) (hivd : d.indexVectorDim = 1)
    (x : (⟨1, ![N]⟩ : Shape).Idx → α) (idx : IVec ⟨2, ![n, 1]⟩ 32) (e : Fin n) (hN : 0 < N) :
    Host.gather d x idx (ix1 e) = x (ix1 (rowOf N hN (idx (ix2 e 0)))) := by
  have h1 : ∀ {q : Nat} (p : Fin q), (Shape.Idx.ofFin p : (⟨1, ![q]⟩ : Shape).Idx) = ix1 p := fun p => by
    funext a; match a with | ⟨0, _⟩ => rfl
  have h2 : StableHlo.Predicate.ixP e = ix2 e 0 := by
    funext a; match a with | ⟨0, _⟩ => rfl | ⟨1, _⟩ => rfl
  rw [← h1 e, ← h2]
  exact (StableHlo.Predicate.gather_take d hcoll hob hsim hivd x idx e hN).trans (congrArg x (h1 _))

theorem gather_rows {α : Type} {N n h : Nat} (d : GatherDims ⟨2, ![N, h]⟩ ⟨2, ![n, 1]⟩ ⟨2, ![n, h]⟩)
    (hoff : d.offsetDims = [1]) (hcoll : d.collapsedSliceDims = [0]) (hob : d.operandBatchingDims = [])
    (hsb : d.startIndicesBatchingDims = []) (hsim : d.startIndexMap = [0]) (hivd : d.indexVectorDim = 1) (hss : d.sliceSizes = ![1, h])
    (x : (⟨2, ![N, h]⟩ : Shape).Idx → α) (idx : IVec ⟨2, ![n, 1]⟩ 32) (e : Fin n) (j : Fin h) (hN : 0 < N) :
    Host.gather d x idx (ix2 e j) = x (ix2 (rowOf N hN (idx (ix2 e 0))) j) := by
  show x (d.operandIdx (ix2 e j) idx) = _
  rw [operandIdx_rows d hoff hcoll hob hsim hivd hss idx (ix2 e j) hN]
  rfl

theorem landing_eq_some_iff {n : Nat} (hn : n ≤ 2 ^ 31) (w : BitVec 32) (k : Fin n) :
    landing n w = some k ↔ w = BitVec.ofNat 32 k.val := by
  have hk := k.isLt
  have hm : k.val % 2 ^ 32 = k.val := Nat.mod_eq_of_lt (by omega)
  rw [landing_iff]
  constructor
  · intro h
    have hc := BitVec.toInt_eq_toNat_cond w
    have hwlt := w.isLt
    apply BitVec.eq_of_toNat_eq
    rw [BitVec.toNat_ofNat, hm]
    split at hc <;> omega
  · intro h
    subst h
    rw [BitVec.toInt_eq_toNat_cond, BitVec.toNat_ofNat, hm, if_pos (by omega)]

-- An index that lands is not negative, so the wrap-around of negative indices leaves it alone.
theorem rowOf_wrap_of_landing {n : Nat} (hn : 0 < n) (w : BitVec 32) (k : Fin n) (h : landing n w = some k) :
    rowOf n hn (Scalar.select (Scalar.cmpi .slt w 0#32) (w + BitVec.ofNat 32 n) w) = k := by
  have hw := (landing_iff w k).1 h
  have hk := k.isLt
  have hs : w.slt 0#32 = false := by
    simp only [BitVec.slt, BitVec.toInt_zero, decide_eq_false_iff_not, not_lt]
    omega
  have hc : Scalar.cmpi .slt w 0#32 = 0#1 := by
    show BitVec.ofBool (w.slt 0#32) = 0#1
    rw [hs]; rfl
  rw [hc, select_zero]
  apply Fin.ext
  show min w.toInt.toNat (n - 1) = k.val
  omega

end Cert.Decode

end
-- ==== Proof.Spec.lean ====
import Idealize.ShloMosaic.PureOps.Ideal
import Idealize.ShloMosaic.PureOps.Ideal.Laws
import Idealize.ShloMosaic.Lib.ValueIdx
import proofs.«401631_j30562987278347_3_alg».proof.Proof.LibScatterGather

noncomputable section

namespace Cert.Spec

open Idealize.ShloMosaic Cert.Decode

abbrev NN : Nat := 100000
abbrev NE : Nat := 3200000

def wrapW (w : BitVec 32) : BitVec 32 := Scalar.select (Scalar.cmpi .slt w 0#32) (w + BitVec.ofNat 32 100000) w

def grow (w : BitVec 32) : Fin NN := rowOf NN (by decide) (wrapW w)

def lands (dst : Fin NE → BitVec 32) (v : Fin NN) : Finset (Fin NE) :=
  Finset.univ.filter fun e => landing NN (dst e) = some v

def landsB (bat : Fin NN → BitVec 32) (g : Fin 128) : Finset (Fin NN) :=
  Finset.univ.filter fun n => landing 128 (bat n) = some g

def one32 : EReal := Ideal.ofBits .f32 0x3F800000#32

def deg (dst : Fin NE → BitVec 32) (v : Fin NN) : EReal := (0 + ∑ _e ∈ lands dst v, one32) + one32

def dis (dst : Fin NE → BitVec 32) (v : Fin NN) : EReal := Ideal.rsqrt (deg dst v)

def mm {n k p : Nat} (a : Fin n → Fin k → EReal) (w : Fin k → Fin p → EReal) : Fin n → Fin p → EReal :=
  fun i j => ∑ q, a i q * w q j

def scaledMM {k : Nat} (a : Fin NN → Fin k → EReal) (w : Fin k → Fin 64 → EReal) (d : Fin NN → EReal) :
    Fin NN → Fin 64 → EReal := fun v f => (∑ q, a v q * w q f) * d v

def agg (dst src : Fin NE → BitVec 32) (hs : Fin NN → Fin 64 → EReal) : Fin NN → Fin 64 → EReal :=
  fun v f => 0 + ∑ e ∈ lands dst v, hs (grow (src e)) f

def comb (d : Fin NN → EReal) (raw hs : Fin NN → Fin 64 → EReal) (b : Fin 64 → EReal) : Fin NN → Fin 64 → EReal :=
  fun v f => max (d v * (raw v f + hs v f) + b f) 0

def layerR (dst src : Fin NE → BitVec 32) (h : Fin NN → Fin 64 → EReal) (b : Fin 64 → EReal) : Fin NN → Fin 64 → EReal :=
  fun v f => max (((0 + ∑ e ∈ lands dst v, h (grow (src e)) f * (dis dst (grow (src e)) * dis dst (grow (dst e))))
    + h v f * (dis dst v * dis dst v)) + b f) 0

def node (c : Fin 2) (i : Fin 25) (r : Fin 2000) : Fin NN := ⟨(25 * c.val + i.val) * 2000 + r.val, by
  have := c.isLt; have := i.isLt; have := r.isLt; show _ < 100000; omega⟩

def ind (bat : Fin NN → BitVec 32) (n : Fin NN) (g : Fin 128) : EReal :=
  if bat n = BitVec.ofNat 32 g.val then 1 else 0

def poolR (bat : Fin NN → BitVec 32) (x : Fin NN → Fin 64 → EReal) : Fin 128 → Fin 64 → EReal :=
  fun g f => 0 + ∑ n ∈ landsB bat g, x n f
def cntR (bat : Fin NN → BitVec 32) : Fin 128 → EReal := fun g => 0 + ∑ _n ∈ landsB bat g, one32

def poolK (bat : Fin NN → BitVec 32) (x : Fin NN → Fin 64 → EReal) : Fin 128 → Fin 64 → EReal :=
  fun g f => 0 + ∑ c : Fin 2, ∑ i : Fin 25, ∑ r : Fin 2000, ind bat (node c i r) g * x (node c i r) f
def cntK (bat : Fin NN → BitVec 32) : Fin 128 → EReal :=
  fun g => 0 + ∑ c : Fin 2, ∑ i : Fin 25, ∑ r : Fin 2000, ind bat (node c i r) g

theorem one32_eq : one32 = 1 := by
  simp [one32, Ideal.ofBits, Ideal.ieee]
  rw [← EReal.coe_mul]
  norm_num

theorem sum_one_eq_card {α : Type} (s : Finset α) : (∑ _e ∈ s, (1 : EReal)) = ((s.card : ℝ) : EReal) := by simp

theorem deg_eq (dst : Fin NE → BitVec 32) (v : Fin NN) : deg dst v = ((((lands dst v).card : ℝ) + 1 : ℝ) : EReal) := by
  unfold deg
  rw [one32_eq, sum_one_eq_card, zero_add, EReal.coe_add, EReal.coe_one]

theorem dis_eq (dst : Fin NE → BitVec 32) (v : Fin NN) :
    dis dst v = (((Real.sqrt (((lands dst v).card : ℝ) + 1))⁻¹ : ℝ) : EReal) := by
  unfold dis
  rw [deg_eq, Ideal.rsqrt_coe]
  have hpos : (0 : ℝ) < ((lands dst v).card : ℝ) + 1 := by positivity
  rw [if_neg (not_lt.2 hpos.le), if_neg hpos.ne']

theorem dis_nonneg (dst : Fin NE → BitVec 32) (v : Fin NN) : 0 ≤ dis dst v := by
  rw [dis_eq]
  exact EReal.coe_nonneg.2 (inv_nonneg.2 (Real.sqrt_nonneg _))
theorem dis_ne_top (dst : Fin NE → BitVec 32) (v : Fin NN) : dis dst v ≠ ⊤ := by
  rw [dis_eq]
  exact EReal.coe_ne_top _

theorem grow_of_lands (dst : Fin NE → BitVec 32) (v : Fin NN) (e : Fin NE) (he : e ∈ lands dst v) : grow (dst e) = v :=
  rowOf_wrap_of_landing (by decide) (dst e) v (Finset.mem_filter.1 he).2

theorem mul_zero_add_sum {α : Type} (d : EReal) (h0 : 0 ≤ d) (ht : d ≠ ⊤) (s : Finset α) (t : α → EReal) :
    d * (0 + ∑ e ∈ s, t e) = 0 + ∑ e ∈ s, d * t e := by
  classical
  rw [zero_add, zero_add]
  induction s using Finset.induction_on with
  | empty => simp
  | insert a s ha ih =>
    rw [Finset.sum_insert ha, Finset.sum_insert ha, EReal.left_distrib_of_nonneg_of_ne_top h0 ht, ih]

theorem layer_eq {k : Nat} (dst src : Fin NE → BitVec 32) (a : Fin NN → Fin k → EReal) (w : Fin k → Fin 64 → EReal) (b : Fin 64 → EReal) :
    comb (dis dst) (agg dst src (scaledMM a w (dis dst))) (scaledMM a w (dis dst)) b = layerR dst src (mm a w) b := by
  funext v f
  unfold comb agg scaledMM layerR mm
  have h0 := dis_nonneg dst v
  have ht := dis_ne_top dst v
  have hs : (∑ e ∈ lands dst v, dis dst v * ((∑ q, a (grow (src e)) q * w q f) * dis dst (grow (src e))))
      = ∑ e ∈ lands dst v, (∑ q, a (grow (src e)) q * w q f) * (dis dst (grow (src e)) * dis dst (grow (dst e))) :=
    Finset.sum_congr rfl fun e he => by
      rw [grow_of_lands dst v e he, mul_left_comm, mul_comm (dis dst v)]
  rw [EReal.left_distrib_of_nonneg_of_ne_top h0 ht, mul_zero_add_sum _ h0 ht, hs, mul_left_comm (dis dst v)]

def nodeEquiv : Fin 2 × Fin 25 × Fin 2000 ≃ Fin NN where
  toFun p := node p.1 p.2.1 p.2.2
  invFun n := (⟨n.val / 50000, by have : n.val < 100000 := n.isLt; omega⟩, ⟨n.val / 2000 % 25, by omega⟩, ⟨n.val % 2000, by omega⟩)
  left_inv := by
    rintro ⟨c, i, r⟩
    have := c.isLt; have := i.isLt; have := r.isLt
    refine Prod.ext (Fin.ext ?_) (Prod.ext (Fin.ext ?_) (Fin.ext ?_))
    · show ((25 * c.val + i.val) * 2000 + r.val) / 50000 = c.val
      omega
    · show ((25 * c.val + i.val) * 2000 + r.val) / 2000 % 25 = i.val
      omega
    · show ((25 * c.val + i.val) * 2000 + r.val) % 2000 = r.val
      omega
  right_inv := by
    intro n
    have : n.val < 100000 := n.isLt
    apply Fin.ext
    show (25 * (n.val / 50000) + n.val / 2000 % 25) * 2000 + n.val % 2000 = n.val
    omega

theorem sum_node (F : Fin NN → EReal) : (∑ c : Fin 2, ∑ i : Fin 25, ∑ r : Fin 2000, F (node c i r)) = ∑ n, F n := by
  rw [← nodeEquiv.sum_comp F]
  simp only [Fintype.sum_prod_type]
  rfl

theorem ind_eq (bat : Fin NN → BitVec 32) (n : Fin NN) (g : Fin 128) :
    ind bat n g = if landing 128 (bat n) = some g then 1 else 0 :=
  if_congr (landing_eq_some_iff (by norm_num) _ _).symm rfl rfl

theorem pool_eq (bat : Fin NN → BitVec 32) (x : Fin NN → Fin 64 → EReal) : poolK bat x = poolR bat x := by
  funext g f
  unfold poolK poolR landsB
  rw [sum_node (fun n => ind bat n g * x n f), Finset.sum_filter]
  refine congrArg (fun z : EReal => 0 + z) (Finset.sum_congr rfl fun n _ => ?_)
  rw [ind_eq, ite_mul, one_mul, zero_mul]

theorem cnt_eq (bat : Fin NN → BitVec 32) : cntK bat = cntR bat := by
  funext g
  unfold cntK cntR landsB
  rw [sum_node (fun n => ind bat n g), Finset.sum_filter, one32_eq]
  exact congrArg (fun z : EReal => 0 + z) (Finset.sum_congr rfl fun n _ => ind_eq bat n g)

end Cert.Spec

end
-- ==== Proof.KVal0.lean ====
import proofs.«401631_j30562987278347_3_alg».proof.Proof.KReg0
import proofs.«401631_j30562987278347_3_alg».proof.Proof.KPay0
import proofs.«401631_j30562987278347_3_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Hand Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

theorem ix2_of_val {n0 n1 : Nat} (j : (⟨2, ![n0, n1]⟩ : Shape).Idx) (a : Fin n0) (b : Fin n1)
    (h0 : (j 0).val = a.val) (h1 : (j 1).val = b.val) : j = ix2 a b :=
  (eq_ix2 j).trans (congrArg₂ ix2 (Fin.ext h0) (Fin.ext h1))

-- the array's row that is row p of the t-th block of 4000 rows
def row {n : Nat} (h : n = 25) (t : Fin n) (p : Fin 4000) : Fin 100000 := ⟨t.val * 4000 + p.val, by
  have := t.isLt; have := p.isLt; omega⟩

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

def G0 (c : Dev nD) : S100000x64.Idx → EReal := fun i =>
  scaledMM (fun v q => V c main_arg0 (ix2 v q)) (fun q f => V c main_arg3 (ix2 q f)) (fun v => V c main_v11 (ix2 v 0))
    ⟨(i 0).val, (i 0).isLt⟩ ⟨(i 1).val, (i 1).isLt⟩

theorem iblk0_0_apply (c : Dev nD) (t : Fin cfg0.N) (p : Fin 4000) (k : Fin 96) :
    iblk0 V c 0 t (ix2 p k) = V c main_arg0 (ix2 (row N_0 t p) k) := by
  obtain ⟨e0, e1, -⟩ := idx_facts0 t
  exact congrArg (V c main_arg0) (ix2_of_val _ _ _
    (by show win0_0.index t (0 : Fin 2) * 4000 + 1 * p.val = t.val * 4000 + p.val; omega)
    (by show win0_0.index t (1 : Fin 2) * 96 + 1 * k.val = k.val; omega))

theorem iblk0_1_apply (c : Dev nD) (t : Fin cfg0.N) (k : Fin 96) (q : Fin 64) :
    iblk0 V c 1 t (ix2 k q) = V c main_arg3 (ix2 k q) := by
  obtain ⟨-, -, e2, e3, -⟩ := idx_facts0 t
  exact congrArg (V c main_arg3) (ix2_of_val _ _ _
    (by show win0_1.index t (0 : Fin 2) * 96 + 1 * k.val = k.val; omega)
    (by show win0_1.index t (1 : Fin 2) * 64 + 1 * q.val = q.val; omega))

theorem iblk0_2_apply (c : Dev nD) (t : Fin cfg0.N) (p : Fin 4000) :
    iblk0 V c 2 t (ix2 p 0) = V c main_v11 (ix2 (row N_0 t p) 0) := by
  obtain ⟨-, -, -, -, e4, e5, -⟩ := idx_facts0 t
  exact congrArg (V c main_v11) (ix2_of_val _ _ _
    (by show win0_2.index t (0 : Fin 2) * 4000 + 1 * p.val = t.val * 4000 + p.val; omega)
    (by show win0_2.index t (1 : Fin 2) * 1 + 1 * 0 = 0; omega))

theorem emb0_3 (t : Fin cfg0.N) (p : Fin 4000) (q : Fin 64) :
    ((cfg0.win 3).blk t).view.emb (ix2 p q) = ix2 (row N_0 t p) q := by
  obtain ⟨-, -, -, -, -, -, e6, e7⟩ := idx_facts0 t
  exact ix2_of_val _ _ _
    (by show win0_3.index t (0 : Fin 2) * 4000 + 1 * p.val = t.val * 4000 + p.val; omega)
    (by show win0_3.index t (1 : Fin 2) * 64 + 1 * q.val = q.val; omega)

theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero zero_off]
  simp only [View.ld_unit_zero (S := S4000x96) zero_off, View.ld_unit_zero (S := S96x64) zero_off, View.ld_unit_zero (S := S4000x1) zero_off]
  funext j
  obtain ⟨p, q, rfl⟩ : ∃ (p : Fin 4000) (q : Fin 64), j = ix2 p q := ⟨j 0, j 1, eq_ix2 j⟩
  show k0_pay1 (F := Ideal) (iblk0 V c 0 t) (iblk0 V c 1 t) (iblk0 V c 2 t) (ix2 p q) = G0 V c (((cfg0.win 3).blk t).view.emb (ix2 p q))
  refine (pay0_apply (iblk0 V c 0 t) (iblk0 V c 1 t) (iblk0 V c 2 t) p q).trans ?_
  rw [emb0_3, iblk0_2_apply]
  simp only [iblk0_0_apply, iblk0_1_apply]
  rfl

theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 25 := N_0
  obtain ⟨t, ht⟩ : ∃ t : Fin cfg0.N, t.val = (i 0).val / 4000 := ⟨⟨(i 0).val / 4000, by omega⟩, rfl⟩
  obtain ⟨-, -, -, -, -, -, e6, e7⟩ := idx_facts0 t
  refine ⟨t, flush0_3 t, ?_⟩
  show i ∈ ((View.whole main_v12).slice (win0_3.rect t)).set
  rw [View.set_slice_whole, Rect.mem_set_unit]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 64 ≤ (i 1).val ∧ (i 1).val < win0_3.index t (1 : Fin 2) * 64 + 64; omega

theorem final0 (c : Dev nD) (v : Fin 100000) (f : Fin 64) :
    (dat0 (F := Ideal) V c).arrAt 3 cfg0.N (ix2 v f)
      = scaledMM (fun v q => V c main_arg0 (ix2 v q)) (fun q f => V c main_arg3 (ix2 q f)) (fun v => V c main_v11 (ix2 v 0)) v f :=
  (congrFun ((dat0 V c).arrAt_eq_of_cover 3 (G0 V c) (fun t _ => flushed0_eq V c t) cover0) (ix2 v f)).trans rfl

end Cert.KernelIdeal.Val

end
-- ==== Proof.KPay1.lean ====
import proofs.«401631_j30562987278347_3_alg».proof.Proof.Gen.KernelIdeal.Skeleton
import proofs.«401631_j30562987278347_3_alg».proof.Proof.LibPlainDot
import proofs.«401631_j30562987278347_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

theorem pay1_apply (d : Vec Ideal S4000x1 .f32) (raw hs : Vec Ideal S4000x64 .f32) (b : Vec Ideal S1x64 .f32)
    (w : Vec Ideal S64x64 .f32) (p : Fin 4000) (q : Fin 64) :
    Gen.k1_pay1 (F := Ideal) d raw hs b w (ix2 p q)
      = (∑ k : Fin 64, max (d (ix2 p 0) * (raw (ix2 p k) + hs (ix2 p k)) + b (ix2 0 k)) 0 * w (ix2 k q)) * d (ix2 p 0) := by
  dsimp only [k1_pay1]
  rw [mulf_apply, Keepdims.broadcastTo_a1_ab_apply, shapeCast_self]
  refine (congrArg (· * d (ix2 p 0))
    (PlainDot.matmul_plain_apply dot_S4000x64_S64x64_S4000x64_1_0_0_1_n_n rfl rfl rfl rfl rfl rfl none _ _ p q)).trans ?_
  refine congrArg (· * d (ix2 p 0)) (Finset.sum_congr rfl fun k _ => ?_)
  rw [truncf_apply, truncf_apply, maximumf_apply, addf_apply, mulf_apply, Keepdims.broadcastTo_a1_ab_apply, addf_apply,
    shapeCast_self, shapeCast_self, broadcastTo_1b_ab_apply, shapeCast_self, broadcast_apply]
  rw [show (FloatOps.ofBits .f32 0x00000000#32 : Ideal .f32) = 0 from Ideal.ofBits_zero_f32]

end Cert.KernelIdeal.Val

end
-- ==== Proof.KVal1.lean ====
import proofs.«401631_j30562987278347_3_alg».proof.Proof.KReg1
import proofs.«401631_j30562987278347_3_alg».proof.Proof.KPay1
import proofs.«401631_j30562987278347_3_alg».proof.Proof.KVal0

noncomputable section

namespace Cert.KernelIdeal.Val

open Cert.KernelIdeal Cert.KernelIdeal.Gen Cert.KernelIdeal.Hand Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

def G1 (c : Dev nD) : S100000x64.Idx → EReal := fun i =>
  scaledMM (comb (fun v => V c main_v11 (ix2 v 0)) (fun v f => V c main_v22 (ix2 v f)) (fun v f => V c main_v12 (ix2 v f))
      (fun f => V c main_v23 (ix2 0 f))) (fun q f => V c main_arg5 (ix2 q f)) (fun v => V c main_v11 (ix2 v 0))
    ⟨(i 0).val, (i 0).isLt⟩ ⟨(i 1).val, (i 1).isLt⟩

theorem iblk1_0_apply (c : Dev nD) (t : Fin cfg1.N) (p : Fin 4000) (k : Fin 64) :
    iblk1 V c 0 t (ix2 p k) = V c main_v22 (ix2 (row N_1 t p) k) := by
  obtain ⟨e0, e1, -⟩ := idx_facts1 t
  exact congrArg (V c main_v22) (ix2_of_val _ _ _
    (by show win1_0.index t (0 : Fin 2) * 4000 + 1 * p.val = t.val * 4000 + p.val; omega)
    (by show win1_0.index t (1 : Fin 2) * 64 + 1 * k.val = k.val; omega))

theorem iblk1_1_apply (c : Dev nD) (t : Fin cfg1.N) (p : Fin 4000) (k : Fin 64) :
    iblk1 V c 1 t (ix2 p k) = V c main_v12 (ix2 (row N_1 t p) k) := by
  obtain ⟨-, -, e2, e3, -⟩ := idx_facts1 t
  exact congrArg (V c main_v12) (ix2_of_val _ _ _
    (by show win1_1.index t (0 : Fin 2) * 4000 + 1 * p.val = t.val * 4000 + p.val; omega)
    (by show win1_1.index t (1 : Fin 2) * 64 + 1 * k.val = k.val; omega))

theorem iblk1_2_apply (c : Dev nD) (t : Fin cfg1.N) (p : Fin 4000) :
    iblk1 V c 2 t (ix2 p 0) = V c main_v11 (ix2 (row N_1 t p) 0) := by
  obtain ⟨-, -, -, -, e4, e5, -⟩ := idx_facts1 t
  exact congrArg (V c main_v11) (ix2_of_val _ _ _
    (by show win1_2.index t (0 : Fin 2) * 4000 + 1 * p.val = t.val * 4000 + p.val; omega)
    (by show win1_2.index t (1 : Fin 2) * 1 + 1 * 0 = 0; omega))

theorem iblk1_3_apply (c : Dev nD) (t : Fin cfg1.N) (k : Fin 64) :
    iblk1 V c 3 t (ix2 0 k) = V c main_v23 (ix2 0 k) := by
  obtain ⟨-, -, -, -, -, -, e6, e7, -⟩ := idx_facts1 t
  exact congrArg (V c main_v23) (ix2_of_val _ _ _
    (by show win1_3.index t (0 : Fin 2) * 1 + 1 * 0 = 0; omega)
    (by show win1_3.index t (1 : Fin 2) * 64 + 1 * k.val = k.val; omega))

theorem iblk1_4_apply (c : Dev nD) (t : Fin cfg1.N) (k : Fin 64) (q : Fin 64) :
    iblk1 V c 4 t (ix2 k q) = V c main_arg5 (ix2 k q) := by
  obtain ⟨-, -, -, -, -, -, -, -, e8, e9, -⟩ := idx_facts1 t
  exact congrArg (V c main_arg5) (ix2_of_val _ _ _
    (by show win1_4.index t (0 : Fin 2) * 64 + 1 * k.val = k.val; omega)
    (by show win1_4.index t (1 : Fin 2) * 64 + 1 * q.val = q.val; omega))

theorem emb1_5 (t : Fin cfg1.N) (p : Fin 4000) (q : Fin 64) :
    ((cfg1.win 5).blk t).view.emb (ix2 p q) = ix2 (row N_1 t p) q := by
  obtain ⟨-, -, -, -, -, -, -, -, -, -, e10, e11⟩ := idx_facts1 t
  exact ix2_of_val _ _ _
    (by show win1_5.index t (0 : Fin 2) * 4000 + 1 * p.val = t.val * 4000 + p.val; omega)
    (by show win1_5.index t (1 : Fin 2) * 64 + 1 * q.val = q.val; omega)

theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero zero_off]
  simp only [View.ld_unit_zero (S := S4000x64) zero_off, View.ld_unit_zero (S := S4000x1) zero_off,
    View.ld_unit_zero (S := S1x64) zero_off, View.ld_unit_zero (S := S64x64) zero_off]
  funext j
  obtain ⟨p, q, rfl⟩ : ∃ (p : Fin 4000) (q : Fin 64), j = ix2 p q := ⟨j 0, j 1, eq_ix2 j⟩
  show k1_pay1 (F := Ideal) (iblk1 V c 2 t) (iblk1 V c 0 t) (iblk1 V c 1 t) (iblk1 V c 3 t) (iblk1 V c 4 t) (ix2 p q)
    = G1 V c (((cfg1.win 5).blk t).view.emb (ix2 p q))
  refine (pay1_apply (iblk1 V c 2 t) (iblk1 V c 0 t) (iblk1 V c 1 t) (iblk1 V c 3 t) (iblk1 V c 4 t) p q).trans ?_
  rw [emb1_5, iblk1_2_apply]
  simp only [iblk1_0_apply, iblk1_1_apply, iblk1_3_apply, iblk1_4_apply]
  rfl

theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 25 := N_1
  obtain ⟨t, ht⟩ : ∃ t : Fin cfg1.N, t.val = (i 0).val / 4000 := ⟨⟨(i 0).val / 4000, by omega⟩, rfl⟩
  obtain ⟨-, -, -, -, -, -, -, -, -, -, e10, e11⟩ := idx_facts1 t
  refine ⟨t, flush1_5 t, ?_⟩
  show i ∈ ((View.whole main_v24).slice (win1_5.rect t)).set
  rw [View.set_slice_whole, Rect.mem_set_unit]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 64 ≤ (i 1).val ∧ (i 1).val < win1_5.index t (1 : Fin 2) * 64 + 64; omega

theorem final1 (c : Dev nD) (v : Fin 100000) (f : Fin 64) :
    (dat1 (F := Ideal) V c).arrAt 5 cfg1.N (ix2 v f)
      = scaledMM (comb (fun v => V c main_v11 (ix2 v 0)) (fun v f => V c main_v22 (ix2 v f)) (fun v f => V c main_v12 (ix2 v f))
          (fun f => V c main_v23 (ix2 0 f))) (fun q f => V c main_arg5 (ix2 q f)) (fun v => V c main_v11 (ix2 v 0)) v f :=
  (congrFun ((dat1 V c).arrAt_eq_of_cover 5 (G1 V c) (fun t _ => flushed1_eq V c t) cover1) (ix2 v f)).trans rfl

end Cert.KernelIdeal.Val

end
-- ==== Proof.LibDotT.lean ====
import proofs.«401631_j30562987278347_3_alg».proof.Proof.LibPlainDot

noncomputable section

namespace Idealize.ShloMosaic.PlainDot

open Idealize.ShloMosaic Idealize.ShloMosaic.ValueIdx

theorem matmul_tn_apply {M K N : Nat} {φ₁ φ₂ : FTy}
    (d : DotDims ⟨2, ![K, M]⟩ ⟨2, ![K, N]⟩ ⟨2, ![M, N]⟩)
    (hlc : d.lhsContracting = [0]) (hrc : d.rhsContracting = [0]) (hln : d.lhsNonContracting = [1]) (hrn : d.rhsNonContracting = [1])
    (hlb : d.lhsBatch = []) (hrb : d.rhsBatch = []) (prec : Option ContractPrecision)
    (l : FVec Ideal ⟨2, ![K, M]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 k p) * r (ix2 k q) :=
  matmul2_apply d hlc hrc hln hrn hlb hrb rfl (by decide : ∀ a : Fin 2, a = 0 ∨ a = 1) (by decide : ∀ a : Fin 2, a = 0 ∨ a = 1) prec l r p q
    (fun k => ix2 k p) (fun k => ix2 k q) (fun _ => ⟨rfl, rfl⟩) (fun _ => ⟨rfl, rfl⟩)

end Idealize.ShloMosaic.PlainDot

end
-- ==== Proof.KPay2.lean ====
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import proofs.«401631_j30562987278347_3_alg».proof.Proof.Gen.KernelIdeal.Skeleton
import proofs.«401631_j30562987278347_3_alg».proof.Proof.LibPlainDot
import proofs.«401631_j30562987278347_3_alg».proof.Proof.LibDotT
import proofs.«401631_j30562987278347_3_alg».proof.Proof.LibKeepdims

noncomputable section

namespace Cert.KernelIdeal.Val

open Idealize.ShloMosaic Idealize.ShloMosaic.ValueIdx Cert.KernelIdeal Cert.KernelIdeal.Gen

theorem onehot_word (x y : BitVec 32) :
    ((((IntOp.cmpi .eq x y).setWidth 32).toInt : ℝ) : EReal) = if x = y then 1 else 0 := by
  show ((((BitVec.ofBool (x == y)).setWidth 32).toInt : ℝ) : EReal) = _
  by_cases h : x = y
  · rw [beq_iff_eq.mpr h, if_pos h, show ((BitVec.ofBool true).setWidth 32).toInt = 1 by decide]; norm_num
  · rw [beq_eq_false_iff_ne.mpr h, if_neg h]; norm_num

theorem pay6_apply (bt : IVec S2000x1 32) (r : Fin 2000) (g : Fin 128) :
    k2_pay6 (F := Ideal) bt (ix2 r g) = if bt (ix2 r (0 : Fin 1)) = BitVec.ofNat 32 g.val then 1 else 0 := by
  refine (onehot_word _ _).trans ?_
  rw [Keepdims.broadcastTo_a1_ab_apply, shapeCast_self, iota_single_apply]

theorem pay4_apply (g : Fin 128) (f : Fin 64) : (k2_pay4 (F := Ideal)) (ix2 g f) = 0 := by
  unfold k2_pay4
  rw [shapeCast_self]
  exact Ideal.ofBits_zero_f32

theorem pay5_apply (u : Fin 1) (g : Fin 128) : (k2_pay5 (F := Ideal)) (ix2 u g) = 0 := by
  unfold k2_pay5
  rw [shapeCast_self]
  exact Ideal.ofBits_zero_f32

theorem pay8_apply (bt : IVec S2000x1 32) (g : Fin 128) :
    k2_pay8 (F := Ideal) bt (ix1 g) = ∑ r : Fin 2000, if bt (ix2 r (0 : Fin 1)) = BitVec.ofNat 32 g.val then (1 : EReal) else 0 := by
  unfold k2_pay8
  refine (Ideal.multiReduction_add_single (k2_pay6 (F := Ideal) bt) 0x00000000#32 reduces_S2000x128_S128 (.inl rfl) rfl (ix1 g)).trans ?_
  show ∑ k : Fin 2000, k2_pay6 (F := Ideal) bt (reduces_S2000x128_S128.lift (ix1 g) k) = _
  exact Finset.sum_congr rfl fun r _ => (congrArg _ ((eq_ix2 _).trans rfl)).trans (pay6_apply bt r g)

theorem pay7_apply (dv : FVec Ideal S2000x1 .f32) (raw hs : FVec Ideal S2000x64 .f32) (bb : FVec Ideal S1x64 .f32)
    (bt : IVec S2000x1 32) (prev : FVec Ideal S128x64 .f32) (g : Fin 128) (f : Fin 64) :
    k2_pay7 (F := Ideal) dv raw hs bb bt prev (ix2 g f)
      = prev (ix2 g f) + ∑ r : Fin 2000, (if bt (ix2 r (0 : Fin 1)) = BitVec.ofNat 32 g.val then (1 : EReal) else 0)
          * max (dv (ix2 r (0 : Fin 1)) * (raw (ix2 r f) + hs (ix2 r f)) + bb (ix2 (0 : Fin 1) f)) 0 := by
  unfold k2_pay7
  refine (congrFun (shapeCast_self _ shapeCasts_S128x64_S128x64) (ix2 g f)).trans ?_
  refine (addf_apply _ _ _).trans ?_
  refine congrArg (prev (ix2 g f) + ·) ?_
  refine (PlainDot.matmul_tn_apply dot_S2000x128_S2000x64_S128x64_0_0_1_1_n_n rfl rfl rfl rfl rfl rfl none _ _ g f).trans ?_
  refine Finset.sum_congr rfl fun r _ => ?_
  refine congrArg₂ (· * ·) (pay6_apply bt r g) ?_
  refine (maximumf_apply _ _ _).trans ?_
  refine congrArg₂ max ?_ Ideal.ofBits_zero_f32
  refine (addf_apply _ _ _).trans ?_
  refine congrArg₂ (· + ·) ?_ ?_
  · refine (mulf_apply _ _ _).trans ?_
    refine congrArg₂ (· * ·) ?_ ?_
    · refine (Keepdims.broadcastTo_a1_ab_apply _ broadcasts_S2000x1_S2000x64 r f).trans ?_
      rw [shapeCast_self]
    · refine (addf_apply _ _ _).trans ?_
      rw [shapeCast_self, shapeCast_self]
  · refine (broadcastTo_1b_ab_apply _ broadcasts_S1x64_S2000x64 r f).trans ?_
    rw [shapeCast_self]

theorem k2pay1_apply (a : FVec Ideal S1x128 .f32) (s : FVec Ideal S128 .f32) (u : Fin 1) (g : Fin 128) :
    k2_pay1 (F := Ideal) a s (ix2 u g) = a (ix2 u g) + s (ix1 g) := by
  unfold k2_pay1
  rw [shapeCast_self]
  exact congrArg (a (ix2 u g) + ·) (shapeCast_a_1a_apply s _ u g)

theorem pay2_apply (a : FVec Ideal S128x64 .f32) (u : Fin 1) (g : Fin 128) (f : Fin 64) :
    k2_pay2 (F := Ideal) a (ix3 u g f) = a (ix2 g f) := by
  unfold k2_pay2
  exact shapeCast_ab_1ab_apply a _ u g f

theorem pay3_apply (a : FVec Ideal S1x128 .f32) (u v : Fin 1) (g : Fin 128) :
    k2_pay3 (F := Ideal) a (ix3 u v g) = a (ix2 v g) := by
  unfold k2_pay3
  exact shapeCast_ab_1ab_apply a _ u v g

end Cert.KernelIdeal.Val

end
-- ==== Proof.KVal2.lean ====
import Idealize.ShloMosaic.Lib.Pipeline.Value
import Idealize.ShloMosaic.Lib.ValueIdx
import proofs.«401631_j30562987278347_3_alg».proof.Proof.KReg2
import proofs.«401631_j30562987278347_3_alg».proof.Proof.KPay2
import proofs.«401631_j30562987278347_3_alg».proof.Proof.Spec

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hidx2_0 : ∀ t : Fin grid2.N, win2_0.index t 0 = t.val ∧ win2_0.index t 1 = 0 := by decide +kernel
theorem hidx2_1 : ∀ t : Fin grid2.N, win2_1.index t 0 = t.val ∧ win2_1.index t 1 = 0 := by decide +kernel
theorem hidx2_2 : ∀ t : Fin grid2.N, win2_2.index t 0 = t.val ∧ win2_2.index t 1 = 0 := by decide +kernel
theorem hidx2_3 : ∀ t : Fin grid2.N, win2_3.index t 0 = 0 ∧ win2_3.index t 1 = 0 := by decide +kernel
theorem hidx2_4 : ∀ t : Fin grid2.N, win2_4.index t 0 = t.val ∧ win2_4.index t 1 = 0 := by decide +kernel
theorem hidx2_5 : ∀ t : Fin grid2.N, win2_5.index t 0 = t.val / 25 ∧ win2_5.index t 1 = 0 ∧ win2_5.index t 2 = 0 := by decide +kernel
theorem hidx2_6 : ∀ t : Fin grid2.N, win2_6.index t 0 = t.val / 25 ∧ win2_6.index t 1 = 0 ∧ win2_6.index t 2 = 0 := by decide +kernel

def nodeN (m : ℕ) (r : Fin 2000) : Fin NN := ⟨(m * 2000 + r.val) % 100000, Nat.mod_lt _ (by decide)⟩

theorem node_eq (k : Fin 2) (i : Fin 25) (r : Fin 2000) : node k i r = nodeN (25 * k.val + i.val) r :=
  Fin.ext (by
    have hk := k.isLt; have hi := i.isLt; have hr := r.isLt
    show (25 * k.val + i.val) * 2000 + r.val = ((25 * k.val + i.val) * 2000 + r.val) % 100000
    omega)

theorem row_eq {i : ℕ} (t : Fin cfg2.N) (r : Fin 2000) (h : i = t.val) :
    i * 2000 + 1 * r.val = (t.val * 2000 + r.val) % 100000 := by
  have hN : cfg2.N = 50 := N_2
  have ht := t.isLt; have hr := r.isLt
  omega

theorem col_eq {i n a : ℕ} (f : Fin a) (h : i = 0) : i * n + 1 * f.val = f.val := by
  subst h; omega

abbrev batF (c : Dev nD) : Fin NN → BitVec 32 := fun n => V c main_v35 (ix2 n (0 : Fin 1))
abbrev dF (c : Dev nD) : Fin NN → EReal := fun v => V c main_v11 (ix2 v (0 : Fin 1))
abbrev rawF (c : Dev nD) : Fin NN → Fin 64 → EReal := fun v f => V c main_v34 (ix2 v f)
abbrev hsF (c : Dev nD) : Fin NN → Fin 64 → EReal := fun v f => V c main_v24 (ix2 v f)
abbrev bF (c : Dev nD) : Fin 64 → EReal := fun f => V c main_v36 (ix2 (0 : Fin 1) f)

theorem rawblk_apply (c : Dev nD) (t : Fin cfg2.N) (r : Fin 2000) (f : Fin 64) :
    iblk2 V c 0 t (ix2 r f) = rawF V c (nodeN t.val r) f :=
  congrArg (V c main_v34) (Shape.idx_ext₂ (row_eq t r (hidx2_0 t).1) (col_eq f (hidx2_0 t).2))

theorem hsblk_apply (c : Dev nD) (t : Fin cfg2.N) (r : Fin 2000) (f : Fin 64) :
    iblk2 V c 1 t (ix2 r f) = hsF V c (nodeN t.val r) f :=
  congrArg (V c main_v24) (Shape.idx_ext₂ (row_eq t r (hidx2_1 t).1) (col_eq f (hidx2_1 t).2))

theorem dblk_apply (c : Dev nD) (t : Fin cfg2.N) (r : Fin 2000) :
    iblk2 V c 2 t (ix2 r (0 : Fin 1)) = dF V c (nodeN t.val r) :=
  congrArg (V c main_v11) (Shape.idx_ext₂ (row_eq t r (hidx2_2 t).1) (col_eq (0 : Fin 1) (hidx2_2 t).2))

theorem batblk_apply (c : Dev nD) (t : Fin cfg2.N) (r : Fin 2000) :
    iblk2 V c 4 t (ix2 r (0 : Fin 1)) = batF V c (nodeN t.val r) :=
  congrArg (V c main_v35) (Shape.idx_ext₂ (row_eq t r (hidx2_4 t).1) (col_eq (0 : Fin 1) (hidx2_4 t).2))

theorem bblk_apply (c : Dev nD) (t : Fin cfg2.N) (f : Fin 64) :
    iblk2 V c 3 t (ix2 (0 : Fin 1) f) = bF V c f :=
  congrArg (V c main_v36) (Shape.idx_ext₂ (col_eq (0 : Fin 1) (hidx2_3 t).1) (col_eq f (hidx2_3 t).2))

def tileS (c : Dev nD) (m : ℕ) (g : Fin 128) (f : Fin 64) : EReal :=
  ∑ r : Fin 2000, ind (batF V c) (nodeN m r) g * comb (dF V c) (rawF V c) (hsF V c) (bF V c) (nodeN m r) f
def tileC (c : Dev nD) (m : ℕ) (g : Fin 128) : EReal :=
  ∑ r : Fin 2000, ind (batF V c) (nodeN m r) g

theorem step_fst (c : Dev nD) (t : Fin cfg2.N) (p : FVec Ideal S128x64 .f32 × FVec Ideal S1x128 .f32) (g : Fin 128) (f : Fin 64) :
    (step2 V c t p).1 (ix2 g f) = p.1 (ix2 g f) + tileS V c t.val g f := by
  refine (pay7_apply _ _ _ _ _ p.1 g f).trans (congrArg (p.1 (ix2 g f) + ·) (Finset.sum_congr rfl fun r _ => ?_))
  rw [batblk_apply, dblk_apply, rawblk_apply, hsblk_apply, bblk_apply]
  rfl

theorem step_snd (c : Dev nD) (t : Fin cfg2.N) (p : FVec Ideal S128x64 .f32 × FVec Ideal S1x128 .f32) (u : Fin 1) (g : Fin 128) :
    (step2 V c t p).2 (ix2 u g) = p.2 (ix2 u g) + tileC V c t.val g := by
  refine (k2pay1_apply p.2 _ u g).trans (congrArg (p.2 (ix2 u g) + ·) ((pay8_apply _ g).trans (Finset.sum_congr rfl fun r _ => ?_)))
  rw [batblk_apply]
  rfl

theorem acc2_congr (c : Dev nD) {n n' : ℕ} (e : n = n') (h : n < cfg2.N) (h' : n' < cfg2.N) : acc2 V c n h = acc2 V c n' h' := by
  subst e; rfl

theorem acc2_half (c : Dev nD) (q : ℕ) : ∀ (j : ℕ) (hj : j < 25) (h : 25 * q + j < cfg2.N) (g : Fin 128) (f : Fin 64) (u : Fin 1),
    (acc2 V c (25 * q + j) h).1 (ix2 g f) = ∑ i ∈ Finset.range (j + 1), tileS V c (25 * q + i) g f
    ∧ (acc2 V c (25 * q + j) h).2 (ix2 u g) = ∑ i ∈ Finset.range (j + 1), tileC V c (25 * q + i) g
  | 0, hj, h, g, f, u => by
    rw [show acc2 V c (25 * q + 0) h = step2 V c ⟨25 * q + 0, h⟩ (k2_pay4 (F := Ideal), k2_pay5 (F := Ideal)) from
      acc2_first V c ⟨25 * q + 0, h⟩ (by show (25 * q + 0) % 25 = 0; omega), Finset.sum_range_one, Finset.sum_range_one,
      step_fst, step_snd]
    exact ⟨(congrArg (· + _) (pay4_apply g f)).trans (zero_add _), (congrArg (· + _) (pay5_apply u g)).trans (zero_add _)⟩
  | j + 1, hj, h, g, f, u => by
    have hprev : 25 * q + j < cfg2.N := by omega
    obtain ⟨ih1, ih2⟩ := acc2_half c q j (by omega) hprev g f u
    rw [show acc2 V c (25 * q + (j + 1)) h = step2 V c ⟨25 * q + (j + 1), h⟩ (acc2 V c (25 * q + j) hprev) from
      (acc2_next V c ⟨25 * q + (j + 1), h⟩ (by show ¬(25 * q + (j + 1)) % 25 = 0; omega)).trans
        (congrArg (step2 V c _) (acc2_congr V c (by show 25 * q + (j + 1) - 1 = 25 * q + j; omega) _ _)),
      Finset.sum_range_succ _ (j + 1), Finset.sum_range_succ _ (j + 1), step_fst, step_snd, ih1, ih2]
    exact ⟨rfl, rfl⟩

def halfS (c : Dev nD) (k : Fin 2) (g : Fin 128) (f : Fin 64) : EReal := ∑ i ∈ Finset.range 25, tileS V c (25 * k.val + i) g f
def halfC (c : Dev nD) (k : Fin 2) (g : Fin 128) : EReal := ∑ i ∈ Finset.range 25, tileC V c (25 * k.val + i) g

abbrev sumsG (c : Dev nD) : FVec Ideal S2x128x64 .f32 := fun j => halfS V c (j 0) (j 1) (j 2)
abbrev cntG (c : Dev nD) : FVec Ideal S2x1x128 .f32 := fun j => halfC V c (j 0) (j 2)

theorem mem_arm {i n x : ℕ} (h : i = 0) (hx : x < n) : i * n ≤ x ∧ x < i * n + n := by
  subst h; omega

theorem ix3_of_val {n0 n1 n2 : ℕ} (j : (⟨3, ![n0, n1, n2]⟩ : Shape).Idx) (a : Fin n0) (b : Fin n1) (d : Fin n2)
    (h0 : (j 0).val = a.val) (h1 : (j 1).val = b.val) (h2 : (j 2).val = d.val) : j = ix3 a b d :=
  funext fun x => Fin.ext (by
    match x with
    | ⟨0, _⟩ => exact h0
    | ⟨1, _⟩ => exact h1
    | ⟨2, _⟩ => exact h2)

theorem flushed_eq5 (c : Dev nD) (t : Fin cfg2.N) (hf : (cfg2.win 5).flush t = true) :
    (dat2 V c).flushed 5 t = ((cfg2.win 5).blk t).view.read (Elt Ideal) (sumsG V c) := by
  have hN : cfg2.N = 50 := N_2
  have h24 : t.val % 25 = 24 := (flush2_5 t).mp hf
  have ht := t.isLt
  have hq : t.val = 25 * (t.val / 25) + 24 := by omega
  funext y
  rw [View.read_apply]
  obtain ⟨u, g, f, rfl⟩ : ∃ (u : Fin 1) (g : Fin 128) (f : Fin 64), y = ix3 u g f := ⟨y 0, y 1, y 2, eq_ix3 y⟩
  have hu := u.isLt
  refine (pay2_apply (acc2 V c t.val t.isLt).1 u g f).trans ?_
  rw [acc2_congr V c hq t.isLt (by omega), (acc2_half V c (t.val / 25) 24 (by omega) (by omega) g f 0).1]
  refine (congrArg (sumsG V c) (ix3_of_val _ ⟨t.val / 25, by omega⟩ g f ?_ ?_ ?_)).symm
  · show win2_5.index t 0 * 1 + 1 * u.val = t.val / 25; rw [(hidx2_5 t).1]; omega
  · exact col_eq g (hidx2_5 t).2.1
  · exact col_eq f (hidx2_5 t).2.2

theorem flushed_eq6 (c : Dev nD) (t : Fin cfg2.N) (hf : (cfg2.win 6).flush t = true) :
    (dat2 V c).flushed 6 t = ((cfg2.win 6).blk t).view.read (Elt Ideal) (cntG V c) := by
  have hN : cfg2.N = 50 := N_2
  have h24 : t.val % 25 = 24 := (flush2_6 t).mp hf
  have ht := t.isLt
  have hq : t.val = 25 * (t.val / 25) + 24 := by omega
  funext y
  rw [View.read_apply]
  obtain ⟨u, v, g, rfl⟩ : ∃ (u : Fin 1) (v : Fin 1) (g : Fin 128), y = ix3 u v g := ⟨y 0, y 1, y 2, eq_ix3 y⟩
  have hu := u.isLt
  refine (pay3_apply (acc2 V c t.val t.isLt).2 u v g).trans ?_
  rw [acc2_congr V c hq t.isLt (by omega), (acc2_half V c (t.val / 25) 24 (by omega) (by omega) g 0 v).2]
  refine (congrArg (cntG V c) (ix3_of_val _ ⟨t.val / 25, by omega⟩ v g ?_ ?_ ?_)).symm
  · show win2_6.index t 0 * 1 + 1 * u.val = t.val / 25; rw [(hidx2_6 t).1]; omega
  · exact col_eq v (hidx2_6 t).2.1
  · exact col_eq g (hidx2_6 t).2.2

theorem cover5 (c : Dev nD) (i : ((cfg2.win 5).arr.view.loc (c.tc : Thread nD τ)).2.ty.Idx) :
    ∃ t : Fin cfg2.N, (cfg2.win 5).flush t = true ∧ i ∈ ((cfg2.win 5).blk t).view.set := by
  have hN : cfg2.N = 50 := N_2
  have h0 : (i 0 : ℕ) < 2 := (i 0).isLt
  obtain ⟨t, htv⟩ : ∃ t : Fin cfg2.N, t.val = 25 * (i 0 : ℕ) + 24 := ⟨⟨25 * (i 0 : ℕ) + 24, by omega⟩, rfl⟩
  refine ⟨t, (flush2_5 t).mpr (by omega), ?_⟩
  show i ∈ ((View.whole main_v37_0).slice (win2_5.rect t)).set
  rw [View.set_slice_whole, Rect.mem_set_unit]
  intro a
  match a with
  | ⟨0, _⟩ =>
    show win2_5.index t 0 * 1 ≤ (i 0 : ℕ) ∧ (i 0 : ℕ) < win2_5.index t 0 * 1 + 1
    rw [(hidx2_5 t).1]; omega
  | ⟨1, _⟩ => exact mem_arm (hidx2_5 t).2.1 (i 1).isLt
  | ⟨2, _⟩ => exact mem_arm (hidx2_5 t).2.2 (i 2).isLt

theorem cover6 (c : Dev nD) (i : ((cfg2.win 6).arr.view.loc (c.tc : Thread nD τ)).2.ty.Idx) :
    ∃ t : Fin cfg2.N, (cfg2.win 6).flush t = true ∧ i ∈ ((cfg2.win 6).blk t).view.set := by
  have hN : cfg2.N = 50 := N_2
  have h0 : (i 0 : ℕ) < 2 := (i 0).isLt
  obtain ⟨t, htv⟩ : ∃ t : Fin cfg2.N, t.val = 25 * (i 0 : ℕ) + 24 := ⟨⟨25 * (i 0 : ℕ) + 24, by omega⟩, rfl⟩
  refine ⟨t, (flush2_6 t).mpr (by omega), ?_⟩
  show i ∈ ((View.whole main_v37_1).slice (win2_6.rect t)).set
  rw [View.set_slice_whole, Rect.mem_set_unit]
  intro a
  match a with
  | ⟨0, _⟩ =>
    show win2_6.index t 0 * 1 ≤ (i 0 : ℕ) ∧ (i 0 : ℕ) < win2_6.index t 0 * 1 + 1
    rw [(hidx2_6 t).1]; omega
  | ⟨1, _⟩ => exact mem_arm (hidx2_6 t).2.1 (i 1).isLt
  | ⟨2, _⟩ => exact mem_arm (hidx2_6 t).2.2 (i 2).isLt

theorem final2_sums (c : Dev nD) (k : Fin 2) (g : Fin 128) (f : Fin 64) :
    (dat2 V c).arrAt 5 cfg2.N (ix3 k g f)
      = ∑ i : Fin 25, ∑ r : Fin 2000, ind (fun n => V c main_v35 (ix2 n 0)) (node k i r) g
          * comb (fun v => V c main_v11 (ix2 v 0)) (fun v f => V c main_v34 (ix2 v f)) (fun v f => V c main_v24 (ix2 v f))
              (fun f => V c main_v36 (ix2 0 f)) (node k i r) f := by
  refine (congrFun ((dat2 V c).arrAt_eq_of_cover 5 (sumsG V c) (flushed_eq5 V c) (cover5 c)) (ix3 k g f)).trans ?_
  show halfS V c k g f = _
  unfold halfS tileS
  rw [Finset.sum_range]
  exact Finset.sum_congr rfl fun i _ => Finset.sum_congr rfl fun r _ => by rw [node_eq]

theorem final2_cnt (c : Dev nD) (k : Fin 2) (g : Fin 128) :
    (dat2 V c).arrAt 6 cfg2.N (ix3 k 0 g) = ∑ i : Fin 25, ∑ r : Fin 2000, ind (fun n => V c main_v35 (ix2 n 0)) (node k i r) g := by
  refine (congrFun ((dat2 V c).arrAt_eq_of_cover 6 (cntG V c) (flushed_eq6 V c) (cover6 c)) (ix3 k (0 : Fin 1) g)).trans ?_
  show halfC V c k g = _
  unfold halfC tileC
  rw [Finset.sum_range]
  exact Finset.sum_congr rfl fun i _ => Finset.sum_congr rfl fun r _ => by rw [node_eq]

end Cert.KernelIdeal.Val

end
-- ==== Proof.KHostVal.lean ====
import proofs.«401631_j30562987278347_3_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«401631_j30562987278347_3_alg».proof.Proof.Spec
import proofs.«401631_j30562987278347_3_alg».proof.Proof.LibScatterGather
import proofs.«401631_j30562987278347_3_alg».proof.Proof.LibUnitAxis

set_option maxRecDepth 16384

noncomputable section

namespace Cert.KernelIdeal.Val

open Cert.KernelIdeal Cert.KernelIdeal.Gen Cert.Spec Cert.Decode
open Idealize.ShloMosaic Idealize.ShloMosaic.TcCoe Idealize.ShloMosaic.ValueIdx Idealize.ShloMosaic.StableHlo

theorem edgeRow_apply (A : S2x3200000.Idx → BitVec 32) (r : Fin 2) (e : Fin NE)
    (hs : S2x3200000.Slices ![r.val, 0] S1x3200000) :
    shapeCast S3200000 (extractStridedSlice S1x3200000 ![r.val, 0] A hs) shapeCasts_S1x3200000_S3200000 (ix1 e) = A (ix2 r e) := by
  exact (shapeCast_1a_a_apply _ _ e).trans (slice2_axis0_apply r.val A hs 0 e r rfl)

theorem host0_src (W : Valuation τ sig (Elt Ideal)) (e : Fin NE) :
    (after (hostOps0 (F := Ideal)) W (main_v1 : DevRef τ sig) : S3200000.Idx → BitVec 32) (ix1 e)
      = (W (main_arg1 : DevRef τ sig) : S2x3200000.Idx → BitVec 32) (ix2 0 e) := by
  after_results
  exact edgeRow_apply _ 0 e _

theorem host0_dst (W : Valuation τ sig (Elt Ideal)) (e : Fin NE) :
    (after (hostOps0 (F := Ideal)) W (main_v3 : DevRef τ sig) : S3200000.Idx → BitVec 32) (ix1 e)
      = (W (main_arg1 : DevRef τ sig) : S2x3200000.Idx → BitVec 32) (ix2 1 e) := by
  after_results
  exact edgeRow_apply _ 1 e _

theorem rsqrt_addf_apply {s : Shape} (a b : FVec Ideal s .f32) (i : s.Idx) :
    Host.rsqrt (F := Ideal) (addf a b) i = Ideal.rsqrt (a i + b i) := rfl

theorem host0_dis (W : Valuation τ sig (Elt Ideal)) (v : Fin NN) :
    (after (hostOps0 (F := Ideal)) W (main_v11 : DevRef τ sig) : S100000x1.Idx → EReal) (ix2 v 0)
      = dis (fun e => (W (main_arg1 : DevRef τ sig) : S2x3200000.Idx → BitVec 32) (ix2 1 e)) v := by
  after_results
  refine (UnitAxis.shapeCast_a_a1_apply _ _ v 0).trans ?_
  refine (rsqrt_addf_apply _ _ _).trans ?_
  refine congrArg₂ (fun a b => Ideal.rsqrt (a + b)) ?_ (broadcastInDim_scalar_apply _ _ _)
  refine (scatterAdd_scalar (n := 100000) (m := 3200000) scatter_S100000_S3200000x1_S3200000_n_0_0_1 rfl rfl rfl rfl _ _ _ v).trans ?_
  refine congrArg₂ (· + ·) ((broadcastInDim_scalar_apply _ _ _).trans Ideal.ofBits_zero_f32)
    (Finset.sum_congr (Finset.filter_congr fun e _ => ?_) fun e _ => broadcastInDim_scalar_apply _ _ _)
  rw [UnitAxis.broadcastInDim_a_a1_apply]
  exact iff_of_eq (congrArg (fun z => landing 100000 z = some v) (edgeRow_apply _ 1 e _))

theorem raw_apply (d3 s1 : S3200000.Idx → BitVec 32) (hs : S100000x64.Idx → EReal) (v : Fin NN) (f : Fin 64) :
    Host.scatterAdd (F := Ideal) (φ := .f32) scatter_S100000x64_S3200000x1_S3200000x64_1_0_0_1
        (broadcastInDim S100000x64 ![] bcast_S_S100000x64 (constant (F := Ideal) S_ .f32 0x00000000#32))
        (broadcastInDim S3200000x1 ![0] bcast_S3200000_S3200000x1_0 d3)
        (Host.gather gather_S100000x64_S3200000x1_S3200000x64_1_0_n_n_0_1_164 hs
          (broadcastInDim S3200000x1 ![0] bcast_S3200000_S3200000x1_0
            (select (cmpi .slt s1 (broadcastInDim S3200000 ![] bcast_S_S3200000 (constantI S_ 32 0#32)))
              (addi s1 (broadcastInDim S3200000 ![] bcast_S_S3200000 (constantI S_ 32 100000#32))) s1))) (ix2 v f)
      = agg (fun e => d3 (ix1 e)) (fun e => s1 (ix1 e)) (fun u g => hs (ix2 u g)) v f := by
  refine (scatterAdd_rows (n := 100000) (m := 3200000) (h := 64) scatter_S100000x64_S3200000x1_S3200000x64_1_0_0_1 rfl rfl rfl rfl _ _ _ v f).trans ?_
  unfold agg
  refine congrArg₂ (· + ·) ?_ ?_
  · exact (broadcastInDim_scalar_apply _ _ _).trans Ideal.ofBits_zero_f32
  · unfold lands
    refine Finset.sum_congr (Finset.filter_congr fun e _ => ?_) (fun e _ => ?_)
    · rw [UnitAxis.broadcastInDim_a_a1_apply]
    · refine (gather_rows (N := 100000) (n := 3200000) (h := 64) gather_S100000x64_S3200000x1_S3200000x64_1_0_n_n_0_1_164
        rfl rfl rfl rfl rfl rfl rfl hs _ e f (by decide)).trans ?_
      rw [UnitAxis.broadcastInDim_a_a1_apply]
      rfl

theorem host1_raw (W : Valuation τ sig (Elt Ideal)) (v : Fin NN) (f : Fin 64) :
    (after (hostOps1 (F := Ideal)) W (main_v22 : DevRef τ sig) : S100000x64.Idx → EReal) (ix2 v f)
      = agg (fun e => (W (main_v3 : DevRef τ sig) : S3200000.Idx → BitVec 32) (ix1 e))
          (fun e => (W (main_v1 : DevRef τ sig) : S3200000.Idx → BitVec 32) (ix1 e))
          (fun u g => (W (main_v12 : DevRef τ sig) : S100000x64.Idx → EReal) (ix2 u g)) v f := by
  after_results
  exact raw_apply _ _ _ v f

theorem host1_b (W : Valuation τ sig (Elt Ideal)) (f : Fin 64) :
    (after (hostOps1 (F := Ideal)) W (main_v23 : DevRef τ sig) : S1x64.Idx → EReal) (ix2 0 f)
      = (W (main_arg4 : DevRef τ sig) : S64.Idx → EReal) (ix1 f) := by
  after_results
  exact shapeCast_a_1a_apply _ _ 0 f

end Cert.KernelIdeal.Val

end
-- ==== Proof.KHostVal2.lean ====
import proofs.«401631_j30562987278347_3_alg».proof.Proof.Gen.KernelIdeal.Launch
import Idealize.ShloMosaic.Lib.StableHlo.Run
import Idealize.ShloMosaic.Lib.ValueIdx
import Idealize.ShloMosaic.Lib.ValueLayout
import Idealize.ShloMosaic.PureOps.Ideal.Laws
import proofs.«401631_j30562987278347_3_alg».proof.Proof.Spec
import proofs.«401631_j30562987278347_3_alg».proof.Proof.LibUnitAxis
import proofs.«401631_j30562987278347_3_alg».proof.Proof.KHostVal

noncomputable section

namespace Cert.KernelIdeal.Val

open Cert.KernelIdeal Cert.KernelIdeal.Gen Cert.Spec Cert.Decode
open Idealize.ShloMosaic Idealize.ShloMosaic.TcCoe Idealize.ShloMosaic.ValueIdx Idealize.ShloMosaic.StableHlo

theorem host2_raw (W : Valuation τ sig (Elt Ideal)) (v : Fin NN) (f : Fin 64) :
    (after (hostOps2 (F := Ideal)) W (main_v34 : DevRef τ sig) : S100000x64.Idx → EReal) (ix2 v f)
      = agg (fun e => (W (main_v3 : DevRef τ sig) : S3200000.Idx → BitVec 32) (ix1 e))
          (fun e => (W (main_v1 : DevRef τ sig) : S3200000.Idx → BitVec 32) (ix1 e))
          (fun u q => (W (main_v24 : DevRef τ sig) : S100000x64.Idx → EReal) (ix2 u q)) v f := by
  after_results
  exact raw_apply _ _ _ v f

theorem host2_bat (W : Valuation τ sig (Elt Ideal)) (n : Fin NN) :
    (after (hostOps2 (F := Ideal)) W (main_v35 : DevRef τ sig) : S100000x1.Idx → BitVec 32) (ix2 n 0)
      = (W (main_arg2 : DevRef τ sig) : S100000.Idx → BitVec 32) (ix1 n) := by
  after_results
  exact UnitAxis.shapeCast_a_a1_apply _ _ n 0

theorem host2_b (W : Valuation τ sig (Elt Ideal)) (f : Fin 64) :
    (after (hostOps2 (F := Ideal)) W (main_v36 : DevRef τ sig) : S1x64.Idx → EReal) (ix2 0 f)
      = (W (main_arg6 : DevRef τ sig) : S64.Idx → EReal) (ix1 f) := by
  after_results
  exact shapeCast_a_1a_apply _ _ 0 f

theorem host3_sums (W : Valuation τ sig (Elt Ideal)) (g : Fin 128) (f : Fin 64) :
    (after (hostOps3 (F := Ideal)) W (main_v38 : DevRef τ sig) : S128x64.Idx → EReal) (ix2 g f)
      = 0 + (∑ k : Fin 2, (W (main_v37_0 : DevRef τ sig) : S2x128x64.Idx → EReal) (ix3 k g f) : EReal) := by
  after_results
  refine (Ideal.hostReduceAdd_single reducesTo_S2x128x64_S128x64_d0 (by decide) _ _ _).trans ?_
  exact congrArg₂ (· + ·) Ideal.ofBits_zero_f32 (Finset.sum_congr rfl fun k _ => congrArg _ ((eq_ix3 _).trans rfl))

theorem host3_cnt (W : Valuation τ sig (Elt Ideal)) (g : Fin 128) :
    (after (hostOps3 (F := Ideal)) W (main_v40 : DevRef τ sig) : S128.Idx → EReal) (ix1 g)
      = 0 + (∑ k : Fin 2, (W (main_v37_1 : DevRef τ sig) : S2x1x128.Idx → EReal) (ix3 k 0 g) : EReal) := by
  after_results
  refine (shapeCast_1a_a_apply _ _ g).trans ?_
  refine (Ideal.hostReduceAdd_single reducesTo_S2x1x128_S1x128_d0 (by decide) _ _ _).trans ?_
  exact congrArg₂ (· + ·) Ideal.ofBits_zero_f32 (Finset.sum_congr rfl fun k _ => congrArg _ ((eq_ix3 _).trans rfl))

def tailK (s : S128x64.Idx → EReal) (n : S128.Idx → EReal) (a7 : S64x64.Idx → EReal) (a8 : S64.Idx → EReal)
    (a9 : S64x32.Idx → EReal) (a10 : S32.Idx → EReal) (a11 : S32x2.Idx → EReal) (a12 : S2.Idx → EReal) : S128x2.Idx → EReal :=
  let cnt : S128.Idx → EReal :=
    maximumf (F := Ideal) (φ := .f32) n (broadcastInDim S128 ![] bcast_S_S128 (constant (F := Ideal) S_ .f32 0x3F800000#32))
  let mean : S128x64.Idx → EReal :=
    Host.divf (F := Ideal) (φ := .f32) s
      (broadcastInDim S128x64 ![0, 1] bcast_S128x1_S128x64_0_1 (broadcastInDim S128x1 ![0] bcast_S128_S128x1_0 cnt))
  let y1 : S128x64.Idx → EReal :=
    addf (F := Ideal) (φ := .f32) (Host.dotGeneral (F := Ideal) (φ₁ := .f32) (φ₂ := .f32) dot_S128x64_S64x64_S128x64_1_0_0_1_n_n none mean a7)
      (broadcastInDim S128x64 ![0, 1] bcast_S1x64_S128x64_0_1 (broadcastInDim S1x64 ![1] bcast_S64_S1x64_1 a8))
  let slope : S_.Idx → EReal := constant (F := Ideal) S_ .f32 0x3C23D70A#32
  let zero : S128x64.Idx → EReal := broadcastInDim S128x64 ![] bcast_S_S128x64 (constant (F := Ideal) S_ .f32 0x00000000#32)
  let act : S128x64.Idx → EReal :=
    select (cmpf (F := Ideal) (φ := .f32) .oge y1 zero) y1
      (mulf (F := Ideal) (φ := .f32) (broadcastInDim S128x64 ![] bcast_S_S128x64 slope) y1)
  let y2 : S128x32.Idx → EReal :=
    addf (F := Ideal) (φ := .f32) (Host.dotGeneral (F := Ideal) (φ₁ := .f32) (φ₂ := .f32) dot_S128x64_S64x32_S128x32_1_0_0_1_n_n none act a9)
      (broadcastInDim S128x32 ![0, 1] bcast_S1x32_S128x32_0_1 (broadcastInDim S1x32 ![1] bcast_S32_S1x32_1 a10))
  addf (F := Ideal) (φ := .f32) (Host.dotGeneral (F := Ideal) (φ₁ := .f32) (φ₂ := .f32) dot_S128x32_S32x2_S128x2_1_0_0_1_n_n none y2 a11)
    (broadcastInDim S128x2 ![0, 1] bcast_S1x2_S128x2_0_1 (broadcastInDim S1x2 ![1] bcast_S2_S1x2_1 a12))

set_option maxHeartbeats 1600000 in

theorem host_tail (W : Valuation τ sig (Elt Ideal)) :
    (after (hostOps3_2 (F := Ideal)) (after (hostOps3_1 (F := Ideal)) (after (hostOps3 (F := Ideal)) W)) (main_v58 : DevRef τ sig) : S128x2.Idx → EReal)
      = tailK (after (hostOps3 (F := Ideal)) W (main_v38 : DevRef τ sig)) (after (hostOps3 (F := Ideal)) W (main_v40 : DevRef τ sig))
          (W (main_arg7 : DevRef τ sig)) (W (main_arg8 : DevRef τ sig)) (W (main_arg9 : DevRef τ sig))
          (W (main_arg10 : DevRef τ sig)) (W (main_arg11 : DevRef τ sig)) (W (main_arg12 : DevRef τ sig)) := by
  after_results_simp
  rfl

end Cert.KernelIdeal.Val

end
-- ==== Proof.KValue.lean ====
import proofs.«401631_j30562987278347_3_alg».proof.Proof.KRun
import proofs.«401631_j30562987278347_3_alg».proof.Proof.KKeep
import proofs.«401631_j30562987278347_3_alg».proof.Proof.KVal0
import proofs.«401631_j30562987278347_3_alg».proof.Proof.KVal1
import proofs.«401631_j30562987278347_3_alg».proof.Proof.KVal2
import proofs.«401631_j30562987278347_3_alg».proof.Proof.KHostVal
import proofs.«401631_j30562987278347_3_alg».proof.Proof.KHostVal2
import proofs.«401631_j30562987278347_3_alg».proof.Proof.Spec

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

def aX : Fin NN → Fin 96 → EReal := fun v q => m ((c : Thread nD τ).loc main_arg0) (ix2 v q)
def aSrc : Fin NE → BitVec 32 := fun e => m ((c : Thread nD τ).loc main_arg1) (ix2 0 e)
def aDst : Fin NE → BitVec 32 := fun e => m ((c : Thread nD τ).loc main_arg1) (ix2 1 e)
def aBat : Fin NN → BitVec 32 := fun n => m ((c : Thread nD τ).loc main_arg2) (ix1 n)
def aW1 : Fin 96 → Fin 64 → EReal := fun q f => m ((c : Thread nD τ).loc main_arg3) (ix2 q f)
def aB1 : Fin 64 → EReal := fun f => m ((c : Thread nD τ).loc main_arg4) (ix1 f)
def aW2 : Fin 64 → Fin 64 → EReal := fun q f => m ((c : Thread nD τ).loc main_arg5) (ix2 q f)
def aB2 : Fin 64 → EReal := fun f => m ((c : Thread nD τ).loc main_arg6) (ix1 f)

def kD : Fin NN → EReal := dis (aDst m c)
def kHs1 : Fin NN → Fin 64 → EReal := scaledMM (aX m c) (aW1 m c) (kD m c)
def kH1 : Fin NN → Fin 64 → EReal := comb (kD m c) (agg (aDst m c) (aSrc m c) (kHs1 m c)) (kHs1 m c) (aB1 m c)
def kHs2 : Fin NN → Fin 64 → EReal := scaledMM (kH1 m c) (aW2 m c) (kD m c)
def kH2 : Fin NN → Fin 64 → EReal := comb (kD m c) (agg (aDst m c) (aSrc m c) (kHs2 m c)) (kHs2 m c) (aB2 m c)

theorem k_dis : (fun v : Fin NN => W1 m ρ c main_v11 (ix2 v 0)) = kD m c := funext (host0_dis (W0 m ρ c))
theorem k_src : (fun e : Fin NE => W1 m ρ c main_v1 (ix1 e)) = aSrc m c := funext (host0_src (W0 m ρ c))
theorem k_dst : (fun e : Fin NE => W1 m ρ c main_v3 (ix1 e)) = aDst m c := funext (host0_dst (W0 m ρ c))

-- An aggregation whose destinations, sources and rows are the kernel's is the kernel's aggregation of those rows.
theorem raw_of {x : EReal} {d s : Fin NE → BitVec 32} {h hs : Fin NN → Fin 64 → EReal} (v : Fin NN) (f : Fin 64)
    (hx : x = agg d s h v f) (e1 : d = aDst m c) (e2 : s = aSrc m c) (e3 : h = hs) : x = agg (aDst m c) (aSrc m c) hs v f := by
  rw [hx, e1, e2, e3]

theorem k_hs1 : (fun (v : Fin NN) (f : Fin 64) => (dat0 (F := Ideal) (V1 m ρ) c).arrAt 3 cfg0.N (ix2 v f)) = kHs1 m c := by
  funext v f
  rw [final0 (V1 m ρ) c v f, show V1 m ρ c main_arg0 = _ from V1_arg0 m ρ c, show V1 m ρ c main_arg3 = _ from V1_arg3 m ρ c,
    show (fun v : Fin 100000 => V1 m ρ c main_v11 (ix2 v 0)) = kD m c from k_dis m ρ c]
  rfl

theorem k_raw1 (v : Fin NN) (f : Fin 64) : W3 m ρ c main_v22 (ix2 v f) = agg (aDst m c) (aSrc m c) (kHs1 m c) v f :=
  raw_of m c v f (host1_raw (W2 m ρ c) v f) (by rw [W2_v3]; exact k_dst m ρ c) (by rw [W2_v1]; exact k_src m ρ c)
    (by rw [W2_v12]; exact k_hs1 m ρ c)

theorem k_hs2 : (fun (v : Fin NN) (f : Fin 64) => (dat1 (F := Ideal) (V3 m ρ) c).arrAt 5 cfg1.N (ix2 v f)) = kHs2 m c := by
  funext v f
  have h1 : (fun v : Fin 100000 => V3 m ρ c main_v11 (ix2 v 0)) = kD m c := by
    show (fun v : Fin 100000 => W3 m ρ c main_v11 (ix2 v 0)) = _; rw [V3_v11]; exact k_dis m ρ c
  have h2 : (fun (v : Fin 100000) (f : Fin 64) => V3 m ρ c main_v22 (ix2 v f)) = agg (aDst m c) (aSrc m c) (kHs1 m c) :=
    funext fun v => funext (k_raw1 m ρ c v)
  have h3 : (fun (v : Fin 100000) (f : Fin 64) => V3 m ρ c main_v12 (ix2 v f)) = kHs1 m c := by
    show (fun (v : Fin 100000) (f : Fin 64) => W3 m ρ c main_v12 (ix2 v f)) = _; rw [V3_v12]; exact k_hs1 m ρ c
  have h4 : (fun f : Fin 64 => V3 m ρ c main_v23 (ix2 0 f)) = aB1 m c := by
    funext f; show W3 m ρ c main_v23 (ix2 0 f) = _; refine (host1_b (W2 m ρ c) f).trans ?_; rw [W2_arg4]; rfl
  rw [final1 (V3 m ρ) c v f, h1, h2, h3, h4, show V3 m ρ c main_arg5 = _ from V3_arg5 m ρ c]
  rfl

theorem k_raw2 (v : Fin NN) (f : Fin 64) : W5 m ρ c main_v34 (ix2 v f) = agg (aDst m c) (aSrc m c) (kHs2 m c) v f :=
  raw_of m c v f (host2_raw (W4 m ρ c) v f) (by rw [W4_v3]; exact k_dst m ρ c) (by rw [W4_v1]; exact k_src m ρ c)
    (by rw [W4_v24]; exact k_hs2 m ρ c)

theorem k_bat : (fun n : Fin 100000 => V5 m ρ c main_v35 (ix2 n 0)) = aBat m c := by
  funext n; show W5 m ρ c main_v35 (ix2 n 0) = _; refine (host2_bat (W4 m ρ c) n).trans ?_; rw [W4_arg2]; rfl

theorem k_sums (k : Fin 2) (g : Fin 128) (f : Fin 64) :
    W6 m ρ c main_v37_0 (ix3 k g f) = ∑ i : Fin 25, ∑ r : Fin 2000, ind (aBat m c) (node k i r) g * kH2 m c (node k i r) f := by
  have h2 : (fun v : Fin 100000 => V5 m ρ c main_v11 (ix2 v 0)) = kD m c := by
    show (fun v : Fin 100000 => W5 m ρ c main_v11 (ix2 v 0)) = _; rw [V5_v11]; exact k_dis m ρ c
  have h3 : (fun (v : Fin 100000) (f : Fin 64) => V5 m ρ c main_v34 (ix2 v f)) = agg (aDst m c) (aSrc m c) (kHs2 m c) :=
    funext fun v => funext (k_raw2 m ρ c v)
  have h4 : (fun (v : Fin 100000) (f : Fin 64) => V5 m ρ c main_v24 (ix2 v f)) = kHs2 m c := by
    show (fun (v : Fin 100000) (f : Fin 64) => W5 m ρ c main_v24 (ix2 v f)) = _; rw [V5_v24]; exact k_hs2 m ρ c
  have h5 : (fun f : Fin 64 => V5 m ρ c main_v36 (ix2 0 f)) = aB2 m c := by
    funext f; show W5 m ρ c main_v36 (ix2 0 f) = _; refine (host2_b (W4 m ρ c) f).trans ?_; rw [W4_arg6]; rfl
  rw [W6_v37_0, final2_sums (V5 m ρ) c k g f, k_bat m ρ c, h2, h3, h4, h5]; rfl

theorem k_cnt (k : Fin 2) (g : Fin 128) :
    W6 m ρ c main_v37_1 (ix3 k 0 g) = ∑ i : Fin 25, ∑ r : Fin 2000, ind (aBat m c) (node k i r) g := by
  rw [W6_v37_1, final2_cnt (V5 m ρ) c k g, k_bat m ρ c]

def kSums : S128x64.Idx → EReal := fun j => poolK (aBat m c) (kH2 m c) (j 0) (j 1)
def kCnt : S128.Idx → EReal := fun j => cntK (aBat m c) (j 0)

theorem k_pool_arr : (W7 m ρ c main_v38 : S128x64.Idx → EReal) = kSums m c := by
  funext j
  obtain ⟨g, f, rfl⟩ : ∃ (g : Fin 128) (f : Fin 64), j = ix2 g f := ⟨j 0, j 1, eq_ix2 j⟩
  refine (host3_sums (W6 m ρ c) g f).trans ?_
  exact congrArg (fun z : EReal => 0 + z) (Finset.sum_congr rfl fun k _ => k_sums m ρ c k g f)

theorem k_count_arr : (W7 m ρ c main_v40 : S128.Idx → EReal) = kCnt m c := by
  funext j
  obtain ⟨g, rfl⟩ : ∃ g : Fin 128, j = ix1 g := ⟨j 0, eq_ix1 j⟩
  refine (host3_cnt (W6 m ρ c) g).trans ?_
  exact congrArg (fun z : EReal => 0 + z) (Finset.sum_congr rfl fun k _ => k_cnt m ρ c k g)

theorem kernel_value :
    W9 m ρ c main_v58 = tailK (kSums m c) (kCnt m c)
      (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12)) := by
  show after hostOps3_2 (after hostOps3_1 (after hostOps3 (W6 m ρ c))) main_v58 = _
  rw [host_tail (W6 m ρ c), ← k_pool_arr m ρ c, ← k_count_arr m ρ c,
    W6_arg7, W6_arg8, W6_arg9, W6_arg10, W6_arg11, W6_arg12]

end Cert.KernelIdeal.Val

end
-- ==== Proof.LibCastUnit.lean ====
import proofs.«401631_j30562987278347_3_alg».proof.Proof.LibUnitAxis

namespace Idealize.ShloMosaic.CastUnit

open Idealize.ShloMosaic Idealize.ShloMosaic.ValueIdx

variable {α : Type}

theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v (ix2 p c) (ix2 p (0 : Fin 1)) fun
    | ⟨0, _⟩ => UnitAxis.val_eq_ite p
    | ⟨1, _⟩ => rfl

end Idealize.ShloMosaic.CastUnit
-- ==== Proof.RefVal.lean ====
import proofs.«401631_j30562987278347_3_alg».proof.Proof.RefRun
import proofs.«401631_j30562987278347_3_alg».proof.Proof.Spec
import proofs.«401631_j30562987278347_3_alg».proof.Proof.LibScatterGather
import proofs.«401631_j30562987278347_3_alg».proof.Proof.LibUnitAxis
import proofs.«401631_j30562987278347_3_alg».proof.Proof.LibCastUnit
import proofs.«401631_j30562987278347_3_alg».proof.Proof.LibPlainDot
import Idealize.ShloMosaic.Lib.IdealHost
import Idealize.ShloMosaic.Lib.ValueLayout
import Idealize.ShloMosaic.Lib.Pipeline.Value

noncomputable section

namespace Cert.ReferenceIdeal.Val

open Cert.ReferenceIdeal Cert.ReferenceIdeal.Gen Cert.ReferenceIdeal.Hand Cert.Spec Cert.Decode
open Idealize.ShloMosaic Idealize.ShloMosaic.TcCoe Idealize.ShloMosaic.ValueIdx Idealize.ShloMosaic.StableHlo Idealize.SL.Sem

theorem hostRsqrt_apply {s : Shape} {φ : FTy} (x : FVec Ideal s φ) (i : s.Idx) : Host.rsqrt x i = Ideal.rsqrt (x i) := rfl

def row (V : Valuation τ sig (Elt Ideal)) (o : ℕ) (h : S2x3200000.Slices ![o, 0] S1x3200000) : S3200000.Idx → BitVec 32 :=
  shapeCast S3200000 (extractStridedSlice S1x3200000 ![o, 0] (V main_arg1 : S2x3200000.Idx → BitVec 32) h) shapeCasts_S1x3200000_S3200000

-- row r of the 2 × E edge array, flattened, reads at e what the array holds at (r, e)
theorem row_apply (V : Valuation τ sig (Elt Ideal)) {o : ℕ} (h : S2x3200000.Slices ![o, 0] S1x3200000) (r : Fin 2) (hr : r.val = o + 0)
    (e : Fin NE) : row V o h (ix1 e) = (V main_arg1 : S2x3200000.Idx → BitVec 32) (ix2 r e) := by
  unfold row
  rw [shapeCast_1a_a_apply]
  exact slice2_axis0_apply o _ h 0 e r hr

theorem ref0_src (V : Valuation τ sig (Elt Ideal)) (e : Fin NE) :
    (after (ops0 (F := Ideal)) V main_v1 : S3200000.Idx → BitVec 32) (ix1 e)
      = (V main_arg1 : S2x3200000.Idx → BitVec 32) (ix2 (0 : Fin 2) e) := by
  have h : (after (ops0 (F := Ideal)) V main_v1 : S3200000.Idx → BitVec 32) = row V 0 slices_S2x3200000_S1x3200000_0_0 := by
    after_results; rfl
  rw [h, row_apply V _ 0 rfl]

theorem ref0_dst (V : Valuation τ sig (Elt Ideal)) (e : Fin NE) :
    (after (ops0 (F := Ideal)) V main_v3 : S3200000.Idx → BitVec 32) (ix1 e)
      = (V main_arg1 : S2x3200000.Idx → BitVec 32) (ix2 (1 : Fin 2) e) := by
  have h : (after (ops0 (F := Ideal)) V main_v3 : S3200000.Idx → BitVec 32) = row V 1 slices_S2x3200000_S1x3200000_1_0 := by
    after_results; rfl
  rw [h, row_apply V _ 1 rfl]

-- d(v) = (1 + number of edges into v)^(-1/2)
theorem ref0 (V : Valuation τ sig (Elt Ideal)) (v : Fin NN) :
    (after (ops0 (F := Ideal)) V main_v10 : S100000.Idx → EReal) (ix1 v)
      = dis (fun e => (V main_arg1 : S2x3200000.Idx → BitVec 32) (ix2 (1 : Fin 2) e)) v := by
  have h : (after (ops0 (F := Ideal)) V main_v10 : S100000.Idx → EReal)
      = Host.rsqrt (F := Ideal) (addf
          (Host.scatterAdd (F := Ideal) scatter_S100000_S3200000x1_S3200000_n_0_0_1
            (broadcastInDim S100000 ![] bcast_S_S100000 (constant (F := Ideal) S_ .f32 0x00000000#32))
            (broadcastInDim S3200000x1 ![0] bcast_S3200000_S3200000x1_0 (row V 1 slices_S2x3200000_S1x3200000_1_0))
            (broadcastInDim S3200000 ![] bcast_S_S3200000 (constant (F := Ideal) S_ .f32 0x3F800000#32)))
          (broadcastInDim S100000 ![] bcast_S_S100000 (constant (F := Ideal) S_ .f32 0x3F800000#32))) := by
    after_results; rfl
  rw [h]
  rw [hostRsqrt_apply, addf_apply, scatterAdd_scalar _ rfl rfl rfl rfl, broadcastInDim_scalar_apply, broadcastInDim_scalar_apply]
  have hidx : ∀ e : Fin 3200000, broadcastInDim S3200000x1 ![0] bcast_S3200000_S3200000x1_0 (row V 1 slices_S2x3200000_S1x3200000_1_0) (ix2 e (0 : Fin 1))
      = (V main_arg1 : S2x3200000.Idx → BitVec 32) (ix2 (1 : Fin 2) e) := fun e => by
    rw [UnitAxis.broadcastInDim_a_a1_apply]; exact row_apply V _ 1 rfl e
  have hupd : ∀ e : Fin 3200000, broadcastInDim S3200000 ![] bcast_S_S3200000 (constant (F := Ideal) S_ .f32 0x3F800000#32) (ix1 e) = one32 :=
    fun e => broadcastInDim_scalar_apply _ _ _
  simp only [hidx, hupd, constant_apply, Ideal.ofBits_zero_f32]
  rfl

def gatherD (d10 : FVec Ideal S100000 .f32) (a : IVec S3200000 32) : FVec Ideal S3200000 .f32 :=
  Host.gather gather_S100000_S3200000x1_S3200000_n_0_n_n_0_1_1 d10
    (broadcastInDim S3200000x1 ![0] bcast_S3200000_S3200000x1_0
      (select (cmpi .slt a (broadcastInDim S3200000 ![] bcast_S_S3200000 (constantI S_ 32 0#32)))
        (addi a (broadcastInDim S3200000 ![] bcast_S_S3200000 (constantI S_ 32 100000#32))) a))

theorem wrap_apply (a : S3200000.Idx → BitVec 32) (e : Fin NE) :
    select (cmpi .slt a (broadcastInDim S3200000 ![] bcast_S_S3200000 (constantI S_ 32 0#32)))
        (addi a (broadcastInDim S3200000 ![] bcast_S_S3200000 (constantI S_ 32 100000#32))) a (ix1 e)
      = wrapW (a (ix1 e)) := by
  rw [select_apply]
  show Scalar.select (IntOp.cmpi .slt (a (ix1 e)) (broadcastInDim S3200000 ![] bcast_S_S3200000 (constantI S_ 32 0#32) (ix1 e)))
      (IntOp.addi (a (ix1 e)) (broadcastInDim S3200000 ![] bcast_S_S3200000 (constantI S_ 32 100000#32) (ix1 e))) (a (ix1 e)) = _
  rw [broadcastInDim_scalar_apply, broadcastInDim_scalar_apply]
  rfl

-- a negative index is wrapped once, then clamped into the table
theorem gatherD_apply (d10 : FVec Ideal S100000 .f32) (a : IVec S3200000 32) (e : Fin NE) :
    gatherD d10 a (ix1 e) = d10 (ix1 (grow (a (ix1 e)))) := by
  unfold gatherD
  rw [gather_scalar _ rfl rfl rfl rfl _ _ e (by decide : 0 < 100000), UnitAxis.broadcastInDim_a_a1_apply, wrap_apply]
  rfl

set_option maxHeartbeats 4000000 in
theorem ref1 (V : Valuation τ sig (Elt Ideal)) (e : Fin NE) :
    (by exact after (ops1 (F := Ideal)) V main_v25 : S3200000.Idx → EReal) (ix1 e)
      = (by exact V main_v10 : S100000.Idx → EReal) (ix1 (grow ((by exact V main_v1 : S3200000.Idx → BitVec 32) (ix1 e))))
        * (by exact V main_v10 : S100000.Idx → EReal) (ix1 (grow ((by exact V main_v3 : S3200000.Idx → BitVec 32) (ix1 e)))) := by
  have h : (after (ops1 (F := Ideal)) V main_v25 : S3200000.Idx → EReal)
      = mulf (F := Ideal) (φ := .f32) (gatherD (V main_v10) (V main_v1)) (gatherD (V main_v10) (V main_v3)) := by
    after_results_simp; rfl
  rw [h, mulf_apply, gatherD_apply, gatherD_apply]

-- the mean of a graph's rows: their sum over max(count, 1)
def headA (s : FVec Ideal S128x64 .f32) (n : FVec Ideal S128 .f32) : FVec Ideal S128x64 .f32 :=
  let v79 := broadcastInDim S128 ![] bcast_S_S128 (constant (F := Ideal) S_ .f32 0x3F800000#32)
  let v80 := maximumf n v79
  let v81 := broadcastInDim S128x1 ![0] bcast_S128_S128x1_0 v80
  let v82 := broadcastInDim S128x64 ![0, 1] bcast_S128x1_S128x64_0_1 v81
  Host.divf s v82

-- three dense layers, a leaky rectifier after the first
def headB (v83 : FVec Ideal S128x64 .f32) (a7 : FVec Ideal S64x64 .f32) (a8 : FVec Ideal S64 .f32)
    (a9 : FVec Ideal S64x32 .f32) (a10 : FVec Ideal S32 .f32) (a11 : FVec Ideal S32x2 .f32) (a12 : FVec Ideal S2 .f32) :
    FVec Ideal S128x2 .f32 :=
  let v84 := Host.dotGeneral dot_S128x64_S64x64_S128x64_1_0_0_1_n_n none v83 a7
  let v85 := broadcastInDim S1x64 ![1] bcast_S64_S1x64_1 a8
  let v86 := broadcastInDim S128x64 ![0, 1] bcast_S1x64_S128x64_0_1 v85
  let v87 := addf v84 v86
  let c15 := constant (F := Ideal) S_ .f32 0x3C23D70A#32
  let z0 := broadcastInDim S128x64 ![] bcast_S_S128x64 (constant (F := Ideal) S_ .f32 0x00000000#32)
  let z1 := cmpf .oge v87 z0
  let z2 := id c15
  let z3 := broadcastInDim S128x64 ![] bcast_S_S128x64 z2
  let z4 := mulf z3 v87
  let v88 := select z1 v87 z4
  let v89 := Host.dotGeneral dot_S128x64_S64x32_S128x32_1_0_0_1_n_n none v88 a9
  let v90 := broadcastInDim S1x32 ![1] bcast_S32_S1x32_1 a10
  let v91 := broadcastInDim S128x32 ![0, 1] bcast_S1x32_S128x32_0_1 v90
  let v92 := addf v89 v91
  let v93 := Host.dotGeneral dot_S128x32_S32x2_S128x2_1_0_0_1_n_n none v92 a11
  let v94 := broadcastInDim S1x2 ![1] bcast_S2_S1x2_1 a12
  let v95 := broadcastInDim S128x2 ![0, 1] bcast_S1x2_S128x2_0_1 v94
  addf v93 v95

def tailR (s : FVec Ideal S128x64 .f32) (n : FVec Ideal S128 .f32) (a7 : FVec Ideal S64x64 .f32) (a8 : FVec Ideal S64 .f32)
    (a9 : FVec Ideal S64x32 .f32) (a10 : FVec Ideal S32 .f32) (a11 : FVec Ideal S32x2 .f32) (a12 : FVec Ideal S2 .f32) :
    FVec Ideal S128x2 .f32 :=
  headB (headA s n) a7 a8 a9 a10 a11 a12

set_option maxHeartbeats 4000000 in
theorem ref5b (X : Valuation τ sig (Elt Ideal)) :
    (by exact after (ops5 (F := Ideal)) X main_v96 : S128x2.Idx → EReal)
      = headB (X main_v83) (X main_arg7) (X main_arg8) (X main_arg9) (X main_arg10) (X main_arg11) (X main_arg12) := by
  after_results_simp
  have o88 : ∀ u : (⟨S128x64, .f32⟩ : BufTy).Contents (Elt Ideal), (TRef.of main_v88 : TRef sig ⟨S128x64, .f32⟩).toBuf u = u := fun _ => rfl
  have i87 : ∀ u : (main_v87 : Ref sig .tc).ty.Contents (Elt Ideal), (TRef.of main_v87 : TRef sig ⟨S128x64, .f32⟩).ofBuf u = u := fun _ => rfl
  have i15 : ∀ u : (main_cst_15 : Ref sig .tc).ty.Contents (Elt Ideal), (TRef.of main_cst_15 : TRef sig ⟨S_, .f32⟩).ofBuf u = u := fun _ => rfl
  simp only [ofBuf_toBuf, o88, i87, i15]
  rfl

theorem ref5 (V : Valuation τ sig (Elt Ideal)) :
    (by exact after (ops5 (F := Ideal)) (after (ops4 (F := Ideal)) V) main_v96 : S128x2.Idx → EReal)
      = tailR (after (ops4 (F := Ideal)) V main_v74) (after (ops4 (F := Ideal)) V main_v78)
          (V main_arg7) (V main_arg8) (V main_arg9) (V main_arg10) (V main_arg11) (V main_arg12) := by
  have e83 : after (ops4 (F := Ideal)) V main_v83
      = headA (after (ops4 (F := Ideal)) V main_v74) (after (ops4 (F := Ideal)) V main_v78) := by
    after_results_simp; rfl
  have k : ∀ {r : Ref sig .tc}, r ∉ W → after (ops4 (F := Ideal)) V (no_index (Proc.devRef (τ := τ) .tc r)) = V r :=
    fun hr => after_of_writes_sub _ V (stage_writes (F := Ideal)).2.2.2.2.1 hr
  rw [ref5b, e83]
  simp (disch := decide) only [k]
  rfl

end Cert.ReferenceIdeal.Val

end
-- ==== Proof.LibHostDot.lean ====
import Idealize.ShloMosaic.Lib.KernelVsHost
import proofs.«401631_j30562987278347_3_alg».proof.Proof.LibPlainDot
import proofs.«401631_j30562987278347_3_alg».proof.Proof.LibUnitAxis

noncomputable section

namespace Idealize.ShloMosaic.HostDot

open Idealize.ShloMosaic Idealize.ShloMosaic.ValueIdx

-- A product with no accumulator is the same sum as the product into a zero accumulator.
theorem hostDot_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) :=
  (Ideal.dotGeneral_apply d prec .single l r _).trans ((Ideal.matmul_constant_zero_apply d prec l r _).symm.trans
    (PlainDot.matmul_plain_apply d hlc hrc hln hrn hlb hrb prec l r p q))

theorem broadcastInDim_b_1b_apply {α : Type} {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) :=
  broadcastInDim_apply _ h x (ix2 u q) (ix1 q) fun | ⟨0, _⟩ => UnitAxis.val_eq_ite q

theorem broadcastInDim_1b_ab_apply {α : Type} {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) :=
  broadcastInDim_oneRow_apply h x p c

end Idealize.ShloMosaic.HostDot

end
-- ==== Proof.RefLayer.lean ====
import proofs.«401631_j30562987278347_3_alg».proof.Proof.RefRun
import proofs.«401631_j30562987278347_3_alg».proof.Proof.Spec
import proofs.«401631_j30562987278347_3_alg».proof.Proof.LibScatterGather
import proofs.«401631_j30562987278347_3_alg».proof.Proof.LibPlainDot
import proofs.«401631_j30562987278347_3_alg».proof.Proof.LibHostDot
import proofs.«401631_j30562987278347_3_alg».proof.Proof.LibCastUnit
import proofs.«401631_j30562987278347_3_alg».proof.Proof.LibUnitAxis
import Idealize.ShloMosaic.PureOps.Ideal.Laws
import Idealize.ShloMosaic.Lib.ValueIdx
import Idealize.ShloMosaic.Lib.StableHlo.Run

noncomputable section

namespace Cert.ReferenceIdeal.Val

open Cert.ReferenceIdeal Cert.ReferenceIdeal.Gen Cert.ReferenceIdeal.Hand Cert.Spec Cert.Decode
open Idealize.ShloMosaic Idealize.ShloMosaic.TcCoe Idealize.ShloMosaic.ValueIdx Idealize.ShloMosaic.StableHlo Idealize.ShloMosaic.HostDot

-- one convolution layer at (v, f): the edges into v bring (x·w)[src e, f] · nrm e; add (x·w)[v, f] · dis(v)², the bias, and clamp below at 0
def layerF {K : Nat} (x : FVec Ideal ⟨2, ![100000, K]⟩ .f32) (w : FVec Ideal ⟨2, ![K, 64]⟩ .f32) (src dst : IVec S3200000 32)
    (nrm : FVec Ideal S3200000 .f32) (dis : FVec Ideal S100000 .f32) (b : FVec Ideal S64 .f32) (v : Fin 100000) (f : Fin 64) : EReal :=
  max (((0 + ∑ e ∈ lands (fun e => dst (ix1 e)) v,
            mm (fun v q => x (ix2 v q)) (fun q f => w (ix2 q f)) (grow (src (ix1 e))) f * nrm (ix1 e))
          + mm (fun v q => x (ix2 v q)) (fun q f => w (ix2 q f)) v f * (dis (ix1 v) * dis (ix1 v)))
        + b (ix1 f)) 0

theorem layer_apply {K : Nat} (dd : DotDims ⟨2, ![100000, K]⟩ ⟨2, ![K, 64]⟩ ⟨2, ![100000, 64]⟩)
    (hlc : dd.lhsContracting = [1]) (hrc : dd.rhsContracting = [0]) (hln : dd.lhsNonContracting = [0]) (hrn : dd.rhsNonContracting = [1])
    (hlb : dd.lhsBatch = []) (hrb : dd.rhsBatch = [])
    (x : FVec Ideal ⟨2, ![100000, K]⟩ .f32) (w : FVec Ideal ⟨2, ![K, 64]⟩ .f32) (src dst : IVec S3200000 32)
    (nrm : FVec Ideal S3200000 .f32) (dis : FVec Ideal S100000 .f32) (b : FVec Ideal S64 .f32) (v : Fin 100000) (f : Fin 64) :
    (maximumf (addf (addf
        (Host.scatterAdd scatter_S100000x64_S3200000x1_S3200000x64_1_0_0_1
          (broadcastInDim S100000x64 ![] bcast_S_S100000x64 (constant (F := Ideal) S_ .f32 0x00000000#32))
          (broadcastInDim S3200000x1 ![0] bcast_S3200000_S3200000x1_0 dst)
          (mulf (Host.gather gather_S100000x64_S3200000x1_S3200000x64_1_0_n_n_0_1_164 (Host.dotGeneral dd none x w : FVec Ideal S100000x64 .f32)
              (broadcastInDim S3200000x1 ![0] bcast_S3200000_S3200000x1_0
                (select (cmpi .slt src (broadcastInDim S3200000 ![] bcast_S_S3200000 (constantI S_ 32 0#32)))
                  (addi src (broadcastInDim S3200000 ![] bcast_S_S3200000 (constantI S_ 32 100000#32))) src)))
            (broadcastInDim S3200000x64 ![0, 1] bcast_S3200000x1_S3200000x64_0_1
              (broadcastInDim S3200000x1 ![0] bcast_S3200000_S3200000x1_0 nrm))))
        (mulf (Host.dotGeneral dd none x w : FVec Ideal S100000x64 .f32)
          (broadcastInDim S100000x64 ![0, 1] bcast_S100000x1_S100000x64_0_1
            (broadcastInDim S100000x1 ![0] bcast_S100000_S100000x1_0 (mulf dis dis)))))
        (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))) (ix2 v f)
      = layerF x w src dst nrm dis b v f := by
  unfold layerF
  have hD : ∀ (r : Fin 100000) (g : Fin 64), (Host.dotGeneral dd none x w : FVec Ideal S100000x64 .f32) (ix2 r g)
      = mm (fun v q => x (ix2 v q)) (fun q f => w (ix2 q f)) r g :=
    fun r g => hostDot_plain_apply dd hlc hrc hln hrn hlb hrb none x w r g
  have hzero : (broadcastInDim S100000x64 ![] bcast_S_S100000x64 (constant (F := Ideal) S_ .f32 0x00000000#32)
      : FVec Ideal S100000x64 .f32) (ix2 v f) = 0 := by
    rw [UnitAxis.broadcastInDim_scalar_apply, constant_apply, Ideal.ofBits_zero_f32]
  rw [maximumf_apply, addf_apply, addf_apply, mulf_apply]
  refine congrArg₂ max (congrArg₂ (· + ·) (congrArg₂ (· + ·) ?_ ?_) ?_) hzero
  · refine (scatterAdd_rows scatter_S100000x64_S3200000x1_S3200000x64_1_0_0_1 rfl rfl rfl rfl _ _ _ v f).trans ?_
    refine congrArg₂ (· + ·) hzero ?_
    have hfilter : (Finset.univ.filter fun e : Fin 3200000 =>
          landing 100000 ((broadcastInDim S3200000x1 ![0] bcast_S3200000_S3200000x1_0 dst : IVec S3200000x1 32) (ix2 e 0)) = some v)
        = lands (fun e => dst (ix1 e)) v := by
      unfold lands
      refine Finset.filter_congr fun e _ => ?_
      rw [UnitAxis.broadcastInDim_a_a1_apply dst _ e 0]
    rw [hfilter]
    refine Finset.sum_congr rfl fun e _ => ?_
    rw [mulf_apply]
    refine congrArg₂ (· * ·) ?_ ?_
    · refine (gather_rows gather_S100000x64_S3200000x1_S3200000x64_1_0_n_n_0_1_164 rfl rfl rfl rfl rfl rfl rfl _ _ e f (by decide)).trans ?_
      rw [UnitAxis.broadcastInDim_a_a1_apply _ _ e 0]
      exact hD _ f
    · exact (CastUnit.broadcastInDim_a1_ab_apply _ _ e f).trans (UnitAxis.broadcastInDim_a_a1_apply nrm _ e 0)
  · exact congrArg₂ (· * ·) (hD v f)
      ((CastUnit.broadcastInDim_a1_ab_apply _ _ v f).trans (UnitAxis.broadcastInDim_a_a1_apply _ _ v 0))
  · exact (broadcastInDim_1b_ab_apply _ _ v f).trans (broadcastInDim_b_1b_apply b _ 0 f)

set_option maxHeartbeats 4000000 in
theorem ref2 (W : Valuation τ sig (Elt Ideal)) (v : Fin 100000) (f : Fin 64) :
    (by exact after (ops2 (F := Ideal)) W main_v48 : S100000x64.Idx → EReal) (ix2 v f)
      = layerF (K := 96) (W main_arg0) (W main_arg3) (W main_v1) (W main_v3) (W main_v25) (W main_v10) (W main_arg4) v f := by
  after_results_simp
  have hout : ∀ u : (⟨S100000x64, .f32⟩ : BufTy).Contents (Elt Ideal),
      (TRef.of main_v48 : TRef sig ⟨S100000x64, .f32⟩).toBuf u = u := fun _ => rfl
  have hin : ∀ u : (main_v47 : Ref sig .tc).ty.Contents (Elt Ideal),
      (TRef.of main_v47 : TRef sig ⟨S100000x64, .f32⟩).ofBuf u = u := fun _ => rfl
  simp only [hout, hin, ofBuf_toBuf]
  exact layer_apply dot_S100000x96_S96x64_S100000x64_1_0_0_1_n_n rfl rfl rfl rfl rfl rfl
    (W main_arg0) (W main_arg3) (W main_v1) (W main_v3) (W main_v25) (W main_v10) (W main_arg4) v f

set_option maxHeartbeats 4000000 in
theorem ref3 (W : Valuation τ sig (Elt Ideal)) (v : Fin 100000) (f : Fin 64) :
    (by exact after (ops3 (F := Ideal)) W main_v71 : S100000x64.Idx → EReal) (ix2 v f)
      = layerF (K := 64) (W main_v48) (W main_arg5) (W main_v1) (W main_v3) (W main_v25) (W main_v10) (W main_arg6) v f := by
  after_results_simp
  have hout : ∀ u : (⟨S100000x64, .f32⟩ : BufTy).Contents (Elt Ideal),
      (TRef.of main_v71 : TRef sig ⟨S100000x64, .f32⟩).toBuf u = u := fun _ => rfl
  have hin : ∀ u : (main_v70 : Ref sig .tc).ty.Contents (Elt Ideal),
      (TRef.of main_v70 : TRef sig ⟨S100000x64, .f32⟩).ofBuf u = u := fun _ => rfl
  simp only [hout, hin, ofBuf_toBuf]
  exact layer_apply dot_S100000x64_S64x64_S100000x64_1_0_0_1_n_n rfl rfl rfl rfl rfl rfl
    (W main_v48) (W main_arg5) (W main_v1) (W main_v3) (W main_v25) (W main_v10) (W main_arg6) v f

end Cert.ReferenceIdeal.Val

end
-- ==== Proof.RefPool.lean ====
import proofs.«401631_j30562987278347_3_alg».proof.Proof.RefRun
import proofs.«401631_j30562987278347_3_alg».proof.Proof.Spec
import proofs.«401631_j30562987278347_3_alg».proof.Proof.LibScatterGather
import proofs.«401631_j30562987278347_3_alg».proof.Proof.LibUnitAxis
import Idealize.ShloMosaic.Lib.StableHlo.Run

noncomputable section

namespace Cert.ReferenceIdeal.Val

open Cert.ReferenceIdeal Cert.ReferenceIdeal.Gen Cert.ReferenceIdeal.Hand Cert.Spec Cert.Decode
open Idealize.ShloMosaic Idealize.ShloMosaic.TcCoe Idealize.ShloMosaic.ValueIdx Idealize.ShloMosaic.StableHlo
open scoped BigOperators

theorem graphIdx (W : Valuation τ sig (Elt Ideal)) (x : Fin 100000) : broadcastInDim S100000x1 ![0] bcast_S100000_S100000x1_0
    (W main_arg2 : S100000.Idx → BitVec 32) (ix2 x 0) = W main_arg2 (ix1 x) :=
  UnitAxis.broadcastInDim_a_a1_apply _ _ x 0

-- a scatter-add from zero sums, for graph g, the rows whose graph id lands on g
theorem ref4_sums (W : Valuation τ sig (Elt Ideal)) (g : Fin 128) (f : Fin 64) :
    after ops4 W main_v74 (ix2 g f) = poolR (fun n => W main_arg2 (ix1 n)) (fun n f => W main_v71 (ix2 n f)) g f := by
  have e : (after ops4 W main_v74 : S128x64.Idx → EReal)
      = Host.scatterAdd (F := Ideal) scatter_S128x64_S100000x1_S100000x64_1_0_0_1
          (broadcastInDim S128x64 ![] bcast_S_S128x64 (constant (F := Ideal) S_ .f32 0x00000000#32))
          (broadcastInDim S100000x1 ![0] bcast_S100000_S100000x1_0 (W main_arg2 : S100000.Idx → BitVec 32))
          (W main_v71 : S100000x64.Idx → EReal) := by
    after_results
  rw [e, scatterAdd_rows _ rfl rfl rfl rfl]
  unfold poolR landsB
  rw [UnitAxis.broadcastInDim_scalar_apply, constant_apply, Ideal.ofBits_zero_f32]
  refine congrArg (fun z : EReal => 0 + z) ?_
  exact Finset.sum_congr (Finset.filter_congr fun x _ => by rw [graphIdx W x]) (fun _ _ => rfl)

theorem ref4_cnt (W : Valuation τ sig (Elt Ideal)) (g : Fin 128) :
    after ops4 W main_v78 (ix1 g) = cntR (fun n => W main_arg2 (ix1 n)) g := by
  have e : (after ops4 W main_v78 : S128.Idx → EReal)
      = Host.scatterAdd (F := Ideal) scatter_S128_S100000x1_S100000_n_0_0_1
          (broadcastInDim S128 ![] bcast_S_S128 (constant (F := Ideal) S_ .f32 0x00000000#32))
          (broadcastInDim S100000x1 ![0] bcast_S100000_S100000x1_0 (W main_arg2 : S100000.Idx → BitVec 32))
          (broadcastInDim S100000 ![] bcast_S_S100000 (constant (F := Ideal) S_ .f32 0x3F800000#32)) := by
    after_results
  have h1 : ∀ x : Fin 100000, broadcastInDim S100000 ![] bcast_S_S100000
      (constant (F := Ideal) S_ .f32 0x3F800000#32) (ix1 x) = one32 :=
    fun x => (UnitAxis.broadcastInDim_scalar_apply _ _ _).trans rfl
  rw [e, scatterAdd_scalar _ rfl rfl rfl rfl]
  unfold cntR landsB
  rw [UnitAxis.broadcastInDim_scalar_apply, constant_apply, Ideal.ofBits_zero_f32]
  refine congrArg (fun z : EReal => 0 + z) ?_
  exact Finset.sum_congr (Finset.filter_congr fun x _ => by rw [graphIdx W x]) (fun x _ => h1 x)

end Cert.ReferenceIdeal.Val

end
-- ==== Proof.RefAsm.lean ====
import proofs.«401631_j30562987278347_3_alg».proof.Proof.RefVal
import proofs.«401631_j30562987278347_3_alg».proof.Proof.RefLayer
import proofs.«401631_j30562987278347_3_alg».proof.Proof.RefPool

noncomputable section

namespace Cert.ReferenceIdeal.Val

open Cert.ReferenceIdeal Cert.ReferenceIdeal.Gen Cert.ReferenceIdeal.Hand Cert.Spec Cert.Decode
open Idealize.ShloMosaic Idealize.ShloMosaic.TcCoe Idealize.ShloMosaic.ValueIdx Idealize.ShloMosaic.StableHlo Idealize.SL.Sem

def edgeDst (a1 : IVec S2x3200000 32) : Fin NE → BitVec 32 := fun e => a1 (ix2 (1 : Fin 2) e)
def edgeSrc (a1 : IVec S2x3200000 32) : Fin NE → BitVec 32 := fun e => a1 (ix2 (0 : Fin 2) e)

def layer1 (a0 : FVec Ideal S100000x96 .f32) (a1 : IVec S2x3200000 32) (a3 : FVec Ideal S96x64 .f32) (a4 : FVec Ideal S64 .f32) :
    Fin NN → Fin 64 → EReal :=
  layerR (edgeDst a1) (edgeSrc a1) (mm (fun v q => a0 (ix2 v q)) (fun q f => a3 (ix2 q f))) (fun f => a4 (ix1 f))

def layer2 (a0 : FVec Ideal S100000x96 .f32) (a1 : IVec S2x3200000 32) (a3 : FVec Ideal S96x64 .f32) (a4 : FVec Ideal S64 .f32)
    (a5 : FVec Ideal S64x64 .f32) (a6 : FVec Ideal S64 .f32) : Fin NN → Fin 64 → EReal :=
  layerR (edgeDst a1) (edgeSrc a1) (mm (layer1 a0 a1 a3 a4) (fun q f => a5 (ix2 q f))) (fun f => a6 (ix1 f))

def refOut (a0 : FVec Ideal S100000x96 .f32) (a1 : IVec S2x3200000 32) (a2 : IVec S100000 32) (a3 : FVec Ideal S96x64 .f32)
    (a4 : FVec Ideal S64 .f32) (a5 : FVec Ideal S64x64 .f32) (a6 : FVec Ideal S64 .f32) (a7 : FVec Ideal S64x64 .f32)
    (a8 : FVec Ideal S64 .f32) (a9 : FVec Ideal S64x32 .f32) (a10 : FVec Ideal S32 .f32) (a11 : FVec Ideal S32x2 .f32)
    (a12 : FVec Ideal S2 .f32) : FVec Ideal S128x2 .f32 :=
  tailR (fun j => poolR (fun n => a2 (ix1 n)) (layer2 a0 a1 a3 a4 a5 a6) (j 0) (j 1))
    (fun j => cntR (fun n => a2 (ix1 n)) (j 0)) a7 a8 a9 a10 a11 a12

abbrev W1 : List (Ref sig .tc) :=
  [ main_c, main_v11, main_v12, main_c_2, main_v13, main_v14, main_v15, main_v16, main_v17, main_c_3,
    main_v18, main_v19, main_c_4, main_v20, main_v21, main_v22, main_v23, main_v24, main_v25 ]
abbrev W2 : List (Ref sig .tc) :=
  [ main_v26, main_c_5, main_v27, main_v28, main_c_6, main_v29, main_v30, main_v31, main_v32, main_v33,
    main_v34, main_v35, main_v36, main_cst_7, main_v37, main_v38, main_v39, main_v40, main_v41, main_v42,
    main_v43, main_v44, main_v45, main_v46, main_v47, main_call0_cst, main_call0_v0, main_v48 ]

theorem ops12_w : ((ops1 : List (HloOp τ sig (Elt Ideal))).Forall fun op => op.writes ⊆ (W1.map (Proc.devRef (τ := τ) .tc)).toFinset)
    ∧ (ops2 : List (HloOp τ sig (Elt Ideal))).Forall fun op => op.writes ⊆ (W2.map (Proc.devRef (τ := τ) .tc)).toFinset := by
  simp only [List.Forall]
  repeat' constructor
  all_goals exact Finset.singleton_subset_iff.mpr (List.mem_toFinset.mpr (List.mem_map_of_mem (by decide)))

def st0 (V : Valuation τ sig (Elt Ideal)) : Valuation τ sig (Elt Ideal) := after (ops0 (F := Ideal)) V
def st1 (V : Valuation τ sig (Elt Ideal)) : Valuation τ sig (Elt Ideal) := after (ops1 (F := Ideal)) (st0 V)
def st2 (V : Valuation τ sig (Elt Ideal)) : Valuation τ sig (Elt Ideal) := after (ops2 (F := Ideal)) (st1 V)
def st3 (V : Valuation τ sig (Elt Ideal)) : Valuation τ sig (Elt Ideal) := after (ops3 (F := Ideal)) (st2 V)

theorem after_ops_eq (V : Valuation τ sig (Elt Ideal)) :
    after (ops (F := Ideal)) V = after (ops5 (F := Ideal)) (after (ops4 (F := Ideal)) (st3 V)) := after_ops V

variable {r : Ref sig .tc}

-- no stage writes a reference outside W
theorem st0_arg (hr : r ∉ W) (V : Valuation τ sig (Elt Ideal)) : st0 V (no_index (Proc.devRef (τ := τ) .tc r)) = V r :=
  after_of_writes_sub _ V (stage_writes (F := Ideal)).1 hr
theorem st1_arg (hr : r ∉ W) (V : Valuation τ sig (Elt Ideal)) : st1 V (no_index (Proc.devRef (τ := τ) .tc r)) = V r :=
  (after_of_writes_sub _ _ (stage_writes (F := Ideal)).2.1 hr).trans (st0_arg hr V)
theorem st2_arg (hr : r ∉ W) (V : Valuation τ sig (Elt Ideal)) : st2 V (no_index (Proc.devRef (τ := τ) .tc r)) = V r :=
  (after_of_writes_sub _ _ (stage_writes (F := Ideal)).2.2.1 hr).trans (st1_arg hr V)
theorem st3_arg (hr : r ∉ W) (V : Valuation τ sig (Elt Ideal)) : st3 V (no_index (Proc.devRef (τ := τ) .tc r)) = V r :=
  (after_of_writes_sub _ _ (stage_writes (F := Ideal)).2.2.2.1 hr).trans (st2_arg hr V)

theorem st1_keep (hr : r ∉ W1) (V : Valuation τ sig (Elt Ideal)) : st1 V (no_index (Proc.devRef (τ := τ) .tc r)) = st0 V r := after_of_writes_sub _ _ ops12_w.1 hr
theorem st2_keep (hr : r ∉ W2) (V : Valuation τ sig (Elt Ideal)) : st2 V (no_index (Proc.devRef (τ := τ) .tc r)) = st1 V r := after_of_writes_sub _ _ ops12_w.2 hr

theorem st0_src (V : Valuation τ sig (Elt Ideal)) (e : Fin NE) : st0 V (no_index (Proc.devRef (τ := τ) .tc main_v1)) (ix1 e) = edgeSrc (V main_arg1) e := ref0_src V e
theorem st0_dst (V : Valuation τ sig (Elt Ideal)) (e : Fin NE) : st0 V (no_index (Proc.devRef (τ := τ) .tc main_v3)) (ix1 e) = edgeDst (V main_arg1) e := ref0_dst V e
theorem st0_dis (V : Valuation τ sig (Elt Ideal)) (v : Fin NN) : st0 V (no_index (Proc.devRef (τ := τ) .tc main_v10)) (ix1 v) = dis (edgeDst (V main_arg1)) v := ref0 V v

theorem st1_norm (V : Valuation τ sig (Elt Ideal)) (e : Fin NE) :
    (by exact st1 V (no_index (Proc.devRef (τ := τ) .tc main_v25)) : S3200000.Idx → EReal) (ix1 e)
      = dis (edgeDst (V main_arg1)) (grow (edgeSrc (V main_arg1) e)) * dis (edgeDst (V main_arg1)) (grow (edgeDst (V main_arg1) e)) := by
  unfold st1; rw [ref1, st0_src, st0_dst, st0_dis, st0_dis]

theorem st2_layer1 (V : Valuation τ sig (Elt Ideal)) (v : Fin NN) (f : Fin 64) :
    (by exact st2 V (no_index (Proc.devRef (τ := τ) .tc main_v48)) : S100000x64.Idx → EReal) (ix2 v f)
      = layer1 (V main_arg0) (V main_arg1) (V main_arg3) (V main_arg4) v f := by
  unfold st2
  rw [ref2]
  simp (disch := decide) only [layerF, st1_keep, st1_arg, st0_src, st0_dst, st0_dis, st1_norm]
  rfl

theorem st3_layer2 (V : Valuation τ sig (Elt Ideal)) (v : Fin NN) (f : Fin 64) :
    (by exact st3 V (no_index (Proc.devRef (τ := τ) .tc main_v71)) : S100000x64.Idx → EReal) (ix2 v f)
      = layer2 (V main_arg0) (V main_arg1) (V main_arg3) (V main_arg4) (V main_arg5) (V main_arg6) v f := by
  unfold st3
  rw [ref3]
  simp (disch := decide) only [layerF, st2_keep, st2_arg, st1_keep, st0_src, st0_dst, st0_dis, st1_norm, st2_layer1]
  rfl

theorem ext_ix2 {a b : Nat} {α : Type} (F G : (⟨2, ![a, b]⟩ : Shape).Idx → α) (h : ∀ p c, F (ix2 p c) = G (ix2 p c)) : F = G :=
  funext fun j => by rw [eq_ix2 j]; exact h _ _
theorem ext_ix1 {a : Nat} {α : Type} (F G : (⟨1, ![a]⟩ : Shape).Idx → α) (h : ∀ p, F (ix1 p) = G (ix1 p)) : F = G :=
  funext fun j => by rw [eq_ix1 j]; exact h _

-- the line's result as a function of its thirteen arguments
theorem ref_value (V : Valuation τ sig (Elt Ideal)) :
    (by exact after (ops (F := Ideal)) V main_v96 : S128x2.Idx → EReal)
      = refOut (V main_arg0) (V main_arg1) (V main_arg2) (V main_arg3) (V main_arg4) (V main_arg5) (V main_arg6) (V main_arg7) (V main_arg8) (V main_arg9) (V main_arg10) (V main_arg11) (V main_arg12) := by
  have hs : (by exact after (ops4 (F := Ideal)) (st3 V) main_v74 : S128x64.Idx → EReal)
      = fun j => poolR (fun n => (by exact V main_arg2 : S100000.Idx → BitVec 32) (ix1 n))
          (layer2 (V main_arg0) (V main_arg1) (V main_arg3) (V main_arg4) (V main_arg5) (V main_arg6)) (j 0) (j 1) := by
    refine ext_ix2 (a := 128) (b := 64) _ _ (fun p c => ?_)
    show after (ops4 (F := Ideal)) (st3 V) main_v74 (ix2 p c)
      = poolR (fun n => V main_arg2 (ix1 n)) (layer2 (V main_arg0) (V main_arg1) (V main_arg3) (V main_arg4) (V main_arg5) (V main_arg6)) p c
    rw [ref4_sums]
    simp (disch := decide) only [st3_arg, st3_layer2]
  have hn : (by exact after (ops4 (F := Ideal)) (st3 V) main_v78 : S128.Idx → EReal)
      = fun j => cntR (fun n => (by exact V main_arg2 : S100000.Idx → BitVec 32) (ix1 n)) (j 0) := by
    refine ext_ix1 (a := 128) _ _ (fun p => ?_)
    show after (ops4 (F := Ideal)) (st3 V) main_v78 (ix1 p) = cntR (fun n => V main_arg2 (ix1 n)) p
    rw [ref4_cnt]
    simp (disch := decide) only [st3_arg]
  rw [after_ops_eq, ref5, hs, hn]
  simp (disch := decide) only [st3_arg]
  rfl

end Cert.ReferenceIdeal.Val

end
-- ==== Proof.Bridge.lean ====
import proofs.«401631_j30562987278347_3_alg».proof.Proof.KHostVal2
import proofs.«401631_j30562987278347_3_alg».proof.Proof.RefVal

noncomputable section

namespace Cert.Bridge

theorem tail_eq : Cert.KernelIdeal.Val.tailK = Cert.ReferenceIdeal.Val.tailR := rfl

end Cert.Bridge

end
-- ==== Proof.SpecBridge.lean ====
import proofs.«401631_j30562987278347_3_alg».proof.Proof.Spec

noncomputable section

namespace Cert.Spec

theorem spec_bridge (X : Fin NN → Fin 96 → EReal) (src dst : Fin NE → BitVec 32) (bat : Fin NN → BitVec 32)
    (W1 : Fin 96 → Fin 64 → EReal) (b1 : Fin 64 → EReal) (W2 : Fin 64 → Fin 64 → EReal) (b2 : Fin 64 → EReal) :
    let d := dis dst
    let hs1 := scaledMM X W1 d
    let h1 := comb d (agg dst src hs1) hs1 b1
    let hs2 := scaledMM h1 W2 d
    let h2 := comb d (agg dst src hs2) hs2 b2
    let l1 := layerR dst src (mm X W1) b1
    let l2 := layerR dst src (mm l1 W2) b2
    poolK bat h2 = poolR bat l2 ∧ cntK bat = cntR bat := by
  intro d hs1 h1 hs2 h2 l1 l2
  have e1 : h1 = l1 := layer_eq dst src X W1 b1
  have e2 : h2 = l2 := (layer_eq dst src h1 W2 b2).trans (congrArg (fun t => layerR dst src (mm t W2) b2) e1)
  exact ⟨(congrArg (poolK bat) e2).trans (pool_eq bat l2), cnt_eq bat⟩

end Cert.Spec

end
-- ==== Proof.BridgeValue.lean ====
import proofs.«401631_j30562987278347_3_alg».proof.Proof.KValue
import proofs.«401631_j30562987278347_3_alg».proof.Proof.RefAsm
import proofs.«401631_j30562987278347_3_alg».proof.Proof.Bridge
import proofs.«401631_j30562987278347_3_alg».proof.Proof.SpecBridge

noncomputable section

namespace Cert.Bridge

open Idealize.ShloMosaic Idealize.ShloMosaic.TcCoe Idealize.ShloMosaic.ValueIdx Idealize.ShloMosaic.StableHlo Idealize.SL.Sem
open Cert.Spec Cert.KernelIdeal.Val

theorem value_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    after (Cert.ReferenceIdeal.Hand.ops (F := Ideal)) (launchContents m' c) (Cert.ReferenceIdeal.main_v96 : DevRef Cert.ReferenceIdeal.τ Cert.ReferenceIdeal.sig)
      = Cert.KernelIdeal.Hand.W9 m ρ c Cert.KernelIdeal.main_v58 := by
  obtain ⟨h0, h1, h2, h3, h4, h5, h6, h7, h8, h9, h10, h11, h12⟩ := hagree
  have e : ∀ {b : Ref Cert.ReferenceIdeal.sig .tc} {x},
      m' ((c.tc : Thread Cert.ReferenceIdeal.nD Cert.ReferenceIdeal.τ).loc b) = x → launchContents m' c (b : DevRef _ _) = x := id
  refine (Cert.ReferenceIdeal.Val.ref_value (launchContents m' c)).trans ?_
  rw [e h0, e h1, e h2, e h3, e h4, e h5, e h6, e h7, e h8, e h9, e h10, e h11, e h12, kernel_value m ρ c, tail_eq]
  unfold Cert.ReferenceIdeal.Val.refOut Cert.ReferenceIdeal.Val.layer2 Cert.ReferenceIdeal.Val.layer1 Cert.ReferenceIdeal.Val.edgeDst Cert.ReferenceIdeal.Val.edgeSrc
  obtain ⟨hp, hc⟩ := spec_bridge (aX m c) (aSrc m c) (aDst m c) (aBat m c) (aW1 m c) (aB1 m c) (aW2 m c) (aB2 m c)
  have hs : kSums m c = fun j : Cert.KernelIdeal.S128x64.Idx =>
      poolR (aBat m c) (layerR (aDst m c) (aSrc m c) (mm (layerR (aDst m c) (aSrc m c) (mm (aX m c) (aW1 m c)) (aB1 m c)) (aW2 m c)) (aB2 m c)) (j 0) (j 1) :=
    funext fun j => congrFun (congrFun hp _) _
  have hn : kCnt m c = fun j : Cert.KernelIdeal.S128.Idx => cntR (aBat m c) (j 0) :=
    funext fun j => congrFun hc _
  rw [hs, hn]
  rfl

end Cert.Bridge

end
-- ==== Proof.lean ====
import proofs.«401631_j30562987278347_3_alg».proof.Defs
import proofs.«401631_j30562987278347_3_alg».proof.Proof.Gen.Kernel
import proofs.«401631_j30562987278347_3_alg».proof.Proof.Gen.KernelIdeal
import proofs.«401631_j30562987278347_3_alg».proof.Proof.Gen.ReferenceIdeal
import proofs.«401631_j30562987278347_3_alg».proof.Proof.Gen.Pre_finite_inputs
import proofs.«401631_j30562987278347_3_alg».proof.Proof.BRun
import proofs.«401631_j30562987278347_3_alg».proof.Proof.KRun
import proofs.«401631_j30562987278347_3_alg».proof.Proof.RefRun
import proofs.«401631_j30562987278347_3_alg».proof.Proof.BridgeValue

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.Hand.frame (F := Ideal) m ρ

open Cert.ReferenceIdeal in
-- The reference's line writes no argument.
theorem ref_args (c : Dev nD) (μ m' : (ℓ : Loc nD τ sig) → Buf (Elt Ideal) ℓ)
    (h : ∀ b : Ref sig .tc, μ ((c.tc : Thread nD τ).loc b) = StableHlo.after Hand.ops (StableHlo.launchContents m' c) (Proc.devRef .tc b)) :
    [main_arg0, main_arg1, main_arg2, main_arg3, main_arg4, main_arg5, main_arg6, main_arg7, main_arg8, main_arg9, main_arg10,
      main_arg11, main_arg12].Forall fun b => μ ((c.tc : Thread nD τ).loc b) = m' ((c.tc : Thread nD τ).loc b) :=
  List.forall_iff_forall_mem.mpr fun b hb => (h b).trans (Hand.after_ops_of_not_mem _ ((by decide : ∀ b ∈ _, b ∉ Hand.W) b hb))

theorem algebraic : Cert.algebraic_KernelIdeal_ReferenceIdeal := by
  intro m ρ m' ρ' _ hagree
  exact ⟨fun c => Cert.KernelIdeal.Hand.W9 m ρ c Cert.KernelIdeal.main_v58,
    (θ_run Cert.KernelIdeal.defs _ _).mono (fun r h c =>
      ⟨h c _ (Cert.KernelIdeal.Hand.mem_uc Cert.KernelIdeal.main_v58 (by decide)), Cert.KernelIdeal.Hand.args_kept m ρ c r.2.mem (h c)⟩)
      (Cert.KernelIdeal.Hand.run_all (F := Ideal) m ρ),
    (θ_run Cert.ReferenceIdeal.defs _ _).mono (fun r h c =>
      ⟨(h c Cert.ReferenceIdeal.main_v96).trans (Cert.Bridge.value_eq m ρ m' c (hagree c)), ref_args c r.2.mem m' (h c)⟩)
      (Cert.ReferenceIdeal.Hand.run_all (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
